-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S50000 : Shape := ⟨1, ![50000]⟩
abbrev S100x64 : Shape := ⟨2, ![100, 64]⟩
abbrev S64 : Shape := ⟨1, ![64]⟩
abbrev S64x64 : Shape := ⟨2, ![64, 64]⟩
abbrev S192x64 : Shape := ⟨2, ![192, 64]⟩
abbrev S64x24 : Shape := ⟨2, ![64, 24]⟩
abbrev S24 : Shape := ⟨1, ![24]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_

variable [Facts]

def fn_part7 {F : FTy → Type} [FloatOps F] (main_v118 : IVec S_ 1) (main_v119 : FVec F S24 .f32) : IVec S_ 1 :=
  let main_cst_46 : FVec F S_ .f32 := constant S_ .f32 0x7F800000#32
  let main_v120 : FVec F S24 .f32 := broadcastInDim S24 ![] bcast_S_S24 main_cst_46
  let main_v121 : IVec S24 1 := cmpf .olt main_v119 main_v120
  let main_c_47 : IVec S_ 1 := constantI S_ 1 1#1
  let main_v122 : IVec S_ 1 := (fun x v => Host.reduce IntOp.andi x v reducesTo_S24_S_d0 h_S_) main_v121 main_c_47
  let main_v123 : IVec S_ 1 := andi main_v118 main_v122
  main_v123

def fn_part6 {F : FTy → Type} [FloatOps F] (main_arg23 : FVec F S64x64 .f32) (main_arg24 : FVec F S64 .f32) (main_arg25 : FVec F S64x24 .f32) (main_arg26 : FVec F S24 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg23
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x24 .f32 := Host.absf main_arg25
  let main_cst_44 : FVec F S_ .f32 := constant S_ .f32 0x7F800000#32
  let main_v115 : FVec F S64x24 .f32 := broadcastInDim S64x24 ![] bcast_S_S64x24 main_cst_44
  let main_v116 : IVec S64x24 1 := cmpf .olt main_v114 main_v115
  let main_c_45 : IVec S_ 1 := constantI S_ 1 1#1
  let main_v117 : IVec S_ 1 := (fun x v => Host.reduce IntOp.andi x v reducesTo_S64x24_S_d0_1 h_S_) main_v116 main_c_45
  let main_v118 : IVec S_ 1 := andi main_v113 main_v117
  let main_v119 : FVec F S24 .f32 := Host.absf main_arg26
  fn_part7 (F := F) main_v118 main_v119

def fn_part5 {F : FTy → Type} [FloatOps F] (main_arg20 : FVec F S64 .f32) (main_arg21 : FVec F S64 .f32) (main_arg22 : FVec F S64 .f32) (main_arg23 : FVec F S64x64 .f32) (main_arg24 : FVec F S64 .f32) (main_arg25 : FVec F S64x24 .f32) (main_arg26 : FVec F S24 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S64x24 .f32) (main_arg26 : FVec F S24 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S64x24 .f32) (main_arg26 : FVec F S24 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x64 .f32 := Host.absf main_arg15
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S64x24 .f32) (main_arg26 : FVec F S24 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S64x24 .f32) (main_arg26 : FVec F S24 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x100 .f32) (main_arg1 : IVec S2x800000 32) (main_arg2 : IVec S50000 32) (main_arg3 : FVec F S100x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S64x24 .f32) (main_arg26 : FVec F S24 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x64 .f32 := Host.absf main_arg3
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x100 : Shape := ⟨2, ![50000, 100]⟩
abbrev S2x800000 : Shape := ⟨2, ![2, 800000]⟩
abbrev S50000 : Shape := ⟨1, ![50000]⟩
abbrev S100x64 : Shape := ⟨2, ![100, 64]⟩
abbrev S64 : Shape := ⟨1, ![64]⟩
abbrev S64x64 : Shape := ⟨2, ![64, 64]⟩
abbrev S192x64 : Shape := ⟨2, ![192, 64]⟩
abbrev S64x24 : Shape := ⟨2, ![64, 24]⟩
abbrev S24 : Shape := ⟨1, ![24]⟩
abbrev S1x800000 : Shape := ⟨2, ![1, 800000]⟩
abbrev S800000 : Shape := ⟨1, ![800000]⟩
abbrev S50000x64 : Shape := ⟨2, ![50000, 64]⟩
abbrev S2000x100 : Shape := ⟨2, ![2000, 100]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x24 : Shape := ⟨2, ![1, 24]⟩
abbrev S50000x1 : Shape := ⟨2, ![50000, 1]⟩
abbrev S512x24 : Shape := ⟨2, ![512, 24]⟩
abbrev S2000x1 : Shape := ⟨2, ![2000, 1]⟩
abbrev S512x64 : Shape := ⟨2, ![512, 64]⟩
abbrev S1x512 : Shape := ⟨2, ![1, 512]⟩
abbrev S2000x512 : Shape := ⟨2, ![2000, 512]⟩

abbrev nBuf : Space → Nat
  | .hbm => 100
  | .vmem => 66
  | .smem => 0
  | _ => 0

abbrev bufTy : (tb : Table) → Fin (tcTables nBuf tb) → BufTy
  | .hbm, ⟨0, _⟩ => ⟨S50000x100, .f32⟩
  | .hbm, ⟨1, _⟩ => ⟨S2x800000, .i32⟩
  | .hbm, ⟨2, _⟩ => ⟨S50000, .i32⟩
  | .hbm, ⟨3, _⟩ => ⟨S100x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S192x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x64, .f32⟩
  | .hbm, ⟨24, _⟩ => ⟨S64, .f32⟩
  | .hbm, ⟨25, _⟩ => ⟨S64x24, .f32⟩
  | .hbm, ⟨26, _⟩ => ⟨S24, .f32⟩
  | .hbm, ⟨27, _⟩ => ⟨S1x800000, .i32⟩
  | .hbm, ⟨28, _⟩ => ⟨S800000, .i32⟩
  | .hbm, ⟨29, _⟩ => ⟨S1x800000, .i32⟩
  | .hbm, ⟨30, _⟩ => ⟨S800000, .i32⟩
  | .hbm, ⟨31, _⟩ => ⟨S50000x64, .f32⟩
  | .hbm, ⟨32, _⟩ => ⟨S50000x64, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .bf16⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S1x64, .f32⟩
  | .hbm, ⟨48, _⟩ => ⟨S1x64, .f32⟩
  | .hbm, ⟨49, _⟩ => ⟨S50000x64, .f32⟩
  | .hbm, ⟨50, _⟩ => ⟨S50000x64, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .bf16⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S1x64, .f32⟩
  | .hbm, ⟨66, _⟩ => ⟨S1x64, .f32⟩
  | .hbm, ⟨67, _⟩ => ⟨S50000x64, .f32⟩
  | .hbm, ⟨68, _⟩ => ⟨S50000x64, .bf16⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .bf16⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S1x64, .f32⟩
  | .hbm, ⟨84, _⟩ => ⟨S1x64, .f32⟩
  | .hbm, ⟨85, _⟩ => ⟨S50000x64, .f32⟩
  | .hbm, ⟨86, _⟩ => ⟨S50000x64, .bf16⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S1x24, .f32⟩
  | .hbm, ⟨98, _⟩ => ⟨S50000x1, .i32⟩
  | .hbm, ⟨99, _⟩ => ⟨S512x24, .f32⟩
  | .local _ .vmem, ⟨0, _⟩ => ⟨S2000x100, .f32⟩
  | .local _ .vmem, ⟨1, _⟩ => ⟨S2000x100, .f32⟩
  | .local _ .vmem, ⟨2, _⟩ => ⟨S100x64, .f32⟩
  | .local _ .vmem, ⟨3, _⟩ => ⟨S2000x64, .f32⟩
  | .local _ .vmem, ⟨4, _⟩ => ⟨S2000x64, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .bf16⟩
  | .local _ .vmem, ⟨17, _⟩ => ⟨S2000x64, .bf16⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .bf16⟩
  | .local _ .vmem, ⟨29, _⟩ => ⟨S2000x64, .bf16⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2000x64, .bf16⟩
  | .local _ .vmem, ⟨41, _⟩ => ⟨S2000x64, .bf16⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x1, .i32⟩
  | .local _ .vmem, ⟨49, _⟩ => ⟨S2000x1, .i32⟩
  | .local _ .vmem, ⟨50, _⟩ => ⟨S64x64, .f32⟩
  | .local _ .vmem, ⟨51, _⟩ => ⟨S64x64, .f32⟩
  | .local _ .vmem, ⟨52, _⟩ => ⟨S64x64, .f32⟩
  | .local _ .vmem, ⟨53, _⟩ => ⟨S1x64, .f32⟩
  | .local _ .vmem, ⟨54, _⟩ => ⟨S64x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S64x24, .f32⟩
  | .local _ .vmem, ⟨63, _⟩ => ⟨S1x24, .f32⟩
  | .local _ .vmem, ⟨64, _⟩ => ⟨S512x24, .f32⟩
  | .local _ .vmem, ⟨65, _⟩ => ⟨S512x64, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4_0 : Ref sig .tc := ⟨.hbm, 31, rfl⟩
abbrev main_v4_1 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18_0 : Ref sig .tc := ⟨.hbm, 49, rfl⟩
abbrev main_v18_1 : Ref sig .tc := ⟨.hbm, 50, rfl⟩
abbrev main_c_1 : Ref sig .tc := ⟨.hbm, 51, rfl⟩
abbrev main_v19 : Ref sig .tc := ⟨.hbm, 52, rfl⟩
abbrev main_v20 : Ref sig .tc := ⟨.hbm, 53, rfl⟩
abbrev main_c_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32_0 : Ref sig .tc := ⟨.hbm, 67, rfl⟩
abbrev main_v32_1 : Ref sig .tc := ⟨.hbm, 68, rfl⟩
abbrev main_c_4 : Ref sig .tc := ⟨.hbm, 69, rfl⟩
abbrev main_v33 : Ref sig .tc := ⟨.hbm, 70, rfl⟩
abbrev main_v34 : Ref sig .tc := ⟨.hbm, 71, rfl⟩
abbrev main_c_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_6 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46_0 : Ref sig .tc := ⟨.hbm, 85, rfl⟩
abbrev main_v46_1 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg8_0 : Ref sig .tc := ⟨.vmem, 54, rfl⟩
abbrev cc4_stg9_0 : Ref sig .tc := ⟨.vmem, 55, rfl⟩
abbrev cc4_stg10_0 : Ref sig .tc := ⟨.vmem, 56, rfl⟩
abbrev cc4_stg11_0 : Ref sig .tc := ⟨.vmem, 57, rfl⟩
abbrev cc4_stg12_0 : Ref sig .tc := ⟨.vmem, 58, rfl⟩
abbrev cc4_stg13_0 : Ref sig .tc := ⟨.vmem, 59, rfl⟩
abbrev cc4_stg14_0 : Ref sig .tc := ⟨.vmem, 60, rfl⟩
abbrev cc4_stg15_0 : Ref sig .tc := ⟨.vmem, 61, rfl⟩
abbrev cc4_stg16_0 : Ref sig .tc := ⟨.vmem, 62, rfl⟩
abbrev cc4_stg17_0 : Ref sig .tc := ⟨.vmem, 63, rfl⟩
abbrev cc4_stg18_0 : Ref sig .tc := ⟨.vmem, 64, rfl⟩
abbrev cc4_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem9_0 : DmaSem sig := 55
abbrev cc4_sem10_0 : DmaSem sig := 56
abbrev cc4_sem11_0 : DmaSem sig := 57
abbrev cc4_sem12_0 : DmaSem sig := 58
abbrev cc4_sem13_0 : DmaSem sig := 59
abbrev cc4_sem14_0 : DmaSem sig := 60
abbrev cc4_sem15_0 : DmaSem sig := 61
abbrev cc4_sem16_0 : DmaSem sig := 62
abbrev cc4_sem17_0 : DmaSem sig := 63
abbrev cc4_sem18_0 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_23 : BitVec 32 := 0#32
  let v48 : BitVec 1 := Scalar.cmpi .ne v47 c0_i32_23
  v48

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S64x64 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1x64 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S64x24 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S1x24 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S512x24 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x100_S2000x100_0_0 : ∀ a, (![0, 0] : Fin 2 → Nat) a + S2000x100.size a ≤ S2000x100.size a
  h_S2000x100 : 0 < S2000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S24_S1x24 : S24.ShapeCasts S1x24
  shapeCasts_S50000_S50000x1 : S50000.ShapeCasts S50000x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S64x64_S64x64 : S64x64.ShapeCasts S64x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  broadcasts_S1x64_S512x64 : S1x64.Broadcasts S512x64
  inb_S64x24_S64x24_0_0 : ∀ a, (![0, 0] : Fin 2 → Nat) a + S64x24.size a ≤ S64x24.size a
  h_S64x24 : 0 < S64x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S512x24 : S1x24.Broadcasts S512x24
  inb_S512x24_S512x24_0_0 : ∀ a, (![0, 0] : Fin 2 → Nat) a + S512x24.size a ≤ S512x24.size a
  h_S512x24 : 0 < S512x24.numel
  dot_S2000x100_S100x64_S2000x64_1_0_0_1_n_n_wf : DotDims.WF S2000x100 S100x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x512_S2000x64_S512x64_0_0_1_1_n_n_wf : DotDims.WF S2000x512 S2000x64 S512x64 [0] [0] [1] [1] [] []
  dot_S512x64_S64x64_S512x64_1_0_0_1_n_n_wf : DotDims.WF S512x64 S64x64 S512x64 [1] [0] [0] [1] [] []
  dot_S512x64_S64x24_S512x24_1_0_0_1_n_n_wf : DotDims.WF S512x64 S64x24 S512x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S50000x100.size a
  hwx0_0 : ∀ i : grid0.Coords, EltTy.bits .f32 = 32 ∨ (Rect.block (s := S50000x100) S2000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .bf16 = 32 ∨ (Rect.block (s := S50000x64) S2000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S50000x64.size a
  hwx2_7 : ∀ i : grid2.Coords, EltTy.bits .bf16 = 32 ∨ (Rect.block (s := S50000x64) S2000x64.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x64.size a ≤ S50000x64.size a
  hwx3_7 : ∀ i : grid3.Coords, EltTy.bits .bf16 = 32 ∨ (Rect.block (s := S50000x64) S2000x64.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .i32 = 32 ∨ (Rect.block (s := S50000x1) S2000x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .f32 = 32 ∨ (Rect.block (s := S64x64) S64x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .f32 = 32 ∨ (Rect.block (s := S1x64) S1x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S64x64.size a ≤ S64x64.size a
  hwx4_14 : ∀ i : grid4.Coords, EltTy.bits .f32 = 32 ∨ (Rect.block (s := S64x64) S64x64.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1x64.size a ≤ S1x64.size a
  hwx4_15 : ∀ i : grid4.Coords, EltTy.bits .f32 = 32 ∨ (Rect.block (s := S1x64) S1x64.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S64x24.size a ≤ S64x24.size a
  hwx4_16 : ∀ i : grid4.Coords, EltTy.bits .f32 = 32 ∨ (Rect.block (s := S64x24) S64x24.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S1x24.size a ≤ S1x24.size a
  hwx4_17 : ∀ i : grid4.Coords, EltTy.bits .f32 = 32 ∨ (Rect.block (s := S1x24) S1x24.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S512x24.size a ≤ S512x24.size a
  hwx4_18 : ∀ i : grid4.Coords, EltTy.bits .f32 = 32 ∨ (Rect.block (s := S512x24) S512x24.size (cc4_transform_18 i) (hinb4_18 i)).WholeWords (EltTy.packing .f32)

variable [Facts₀]

def dot_S2000x100_S100x64_S2000x64_1_0_0_1_n_n : DotDims S2000x100 S100x64 S2000x64 where
  lhsContracting := [1]
  rhsContracting := [0]
  lhsNonContracting := [0]
  rhsNonContracting := [1]
  lhsBatch := []
  rhsBatch := []
  wf := dot_S2000x100_S100x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x24_S512x24_1_0_0_1_n_n : DotDims S512x64 S64x24 S512x24 where
  lhsContracting := [1]
  rhsContracting := [0]
  lhsNonContracting := [0]
  rhsNonContracting := [1]
  lhsBatch := []
  rhsBatch := []
  wf := dot_S512x64_S64x24_S512x24_1_0_0_1_n_n_wf

abbrev win0_0 : Pipeline.Window sig grid0 :=
  Pipeline.Window.ofSpec (Memref.whole main_arg0) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S2000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_1) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32_0) S2000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v32_1) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v32_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46_0) S2000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v46_1) S2000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v18_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32_0) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46_0) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v47) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v48) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v49) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v50) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg17) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v51) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v52) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v53) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v54) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v55) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_arg23) S64x64.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v56) S1x64.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_arg25) S64x24.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v57) S1x24.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v59) S512x24.size cc4_transform_18 reads4_18 true true 1 stage4_18 sem4_18
    hrank4 hreads4_18 hinb4_18 nbuf4_18 (Memref.isWhole_whole _) hwx4_18 hstage4_18

abbrev win4 : Fin 19 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | ⟨_ + 19, h⟩ => absurd h (Nat.not_lt.2 (Nat.le_add_left _ _))
abbrev spec4 : Fin 19 → Pipeline.WinSpec sig grid4.rank := fun w => (win4 w).toWinSpec

abbrev idle4 : Fin 19 → grid4.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun i => !(k4_cond2 i == 1#1) | ⟨_ + 19, h⟩ => absurd h (Nat.not_lt.2 (Nat.le_add_left _ _))

class Facts : Prop extends Facts₀ where

variable [Facts]
-- ==== ReferenceIdeal.lean ====
abbrev S50000x100 : Shape := ⟨2, ![50000, 100]⟩
abbrev S2x800000 : Shape := ⟨2, ![2, 800000]⟩
abbrev S50000 : Shape := ⟨1, ![50000]⟩
abbrev S100x64 : Shape := ⟨2, ![100, 64]⟩
abbrev S64 : Shape := ⟨1, ![64]⟩
abbrev S64x64 : Shape := ⟨2, ![64, 64]⟩
abbrev S192x64 : Shape := ⟨2, ![192, 64]⟩
abbrev S64x24 : Shape := ⟨2, ![64, 24]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S50000x64 : Shape := ⟨2, ![50000, 64]⟩
abbrev S1x64 : Shape := ⟨2, ![1, 64]⟩
abbrev S800000x64 : Shape := ⟨2, ![800000, 64]⟩
abbrev S50000x192 : Shape := ⟨2, ![50000, 192]⟩
abbrev S512x64 : Shape := ⟨2, ![512, 64]⟩
abbrev S50000x1 : Shape := ⟨2, ![50000, 1]⟩
abbrev S512x24 : Shape := ⟨2, ![512, 24]⟩
abbrev S1x24 : Shape := ⟨2, ![1, 24]⟩

abbrev nBuf : Space → Nat
  | .hbm => 155
  | .vmem => 0
  | .smem => 0
  | _ => 0

abbrev hbmTy0_0 (i : Nat) : BufTy := match i % 128 with
  | 0 => ⟨S50000x100, .f32⟩
  | 1 => ⟨S2x800000, .i32⟩
  | 2 => ⟨S50000, .i32⟩
  | 3 => ⟨S100x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S192x64, .f32⟩
  | 16 => ⟨S64, .f32⟩
  | 17 => ⟨S64x64, .f32⟩
  | 18 => ⟨S64, .f32⟩
  | 19 => ⟨S64, .f32⟩
  | 20 => ⟨S64, .f32⟩
  | 21 => ⟨S64, .f32⟩
  | 22 => ⟨S64, .f32⟩
  | 23 => ⟨S64x64, .f32⟩
  | 24 => ⟨S64, .f32⟩
  | 25 => ⟨S64x24, .f32⟩
  | 26 => ⟨S24, .f32⟩
  | 27 => ⟨S1x800000, .i32⟩
  | 28 => ⟨S800000, .i32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x100, .f32⟩
  | 40 => ⟨S_, .f32⟩
  | 41 => ⟨S50000x100, .f32⟩
  | 42 => ⟨S800000x1, .i32⟩
  | 43 => ⟨S50000x100, .f32⟩
  | 44 => ⟨S50000x100, .f32⟩
  | 45 => ⟨S50000x64, .f32⟩
  | 46 => ⟨S1x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S50000x192, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S512x64, .f32⟩
  | 122 => ⟨S50000x1, .i32⟩
  | 123 => ⟨S512x64, .f32⟩
  | 124 => ⟨S512x64, .f32⟩
  | 125 => ⟨S1x64, .f32⟩
  | 126 => ⟨S512x64, .f32⟩
  | 127 => ⟨S512x64, .f32⟩
  | _ => ⟨S50000x100, .f32⟩

abbrev hbmTy0_1 (i : Nat) : BufTy := match i % 128 with
  | 0 => ⟨S1x64, .f32⟩
  | 1 => ⟨S512x64, .f32⟩
  | 2 => ⟨S512x64, .f32⟩
  | 3 => ⟨S_, .f32⟩
  | 4 => ⟨S64, .f32⟩
  | 5 => ⟨S64, .f32⟩
  | 6 => ⟨S64, .f32⟩
  | 7 => ⟨S1x64, .f32⟩
  | 8 => ⟨S512x64, .f32⟩
  | 9 => ⟨S512x64, .f32⟩
  | 10 => ⟨S1x64, .f32⟩
  | 11 => ⟨S512x64, .f32⟩
  | 12 => ⟨S512x64, .f32⟩
  | 13 => ⟨S1x64, .f32⟩
  | 14 => ⟨S512x64, .f32⟩
  | 15 => ⟨S512x64, .f32⟩
  | 16 => ⟨S_, .f32⟩
  | 17 => ⟨S512x64, .f32⟩
  | 18 => ⟨S512x64, .f32⟩
  | 19 => ⟨S512x64, .f32⟩
  | 20 => ⟨S1x64, .f32⟩
  | 21 => ⟨S512x64, .f32⟩
  | 22 => ⟨S512x64, .f32⟩
  | 23 => ⟨S512x24, .f32⟩
  | 24 => ⟨S1x24, .f32⟩
  | 25 => ⟨S512x24, .f32⟩
  | 26 => ⟨S512x24, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_v26 : Ref sig .tc := ⟨.hbm, 58, rfl⟩
abbrev main_c_3 : Ref sig .tc := ⟨.hbm, 59, rfl⟩
abbrev main_v27 : Ref sig .tc := ⟨.hbm, 60, rfl⟩
abbrev main_v28 : Ref sig .tc := ⟨.hbm, 61, rfl⟩
abbrev main_c_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_6 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_v49 : Ref sig .tc := ⟨.hbm, 86, rfl⟩
abbrev main_c_8 : Ref sig .tc := ⟨.hbm, 87, rfl⟩
abbrev main_v50 : Ref sig .tc := ⟨.hbm, 88, rfl⟩
abbrev main_v51 : Ref sig .tc := ⟨.hbm, 89, rfl⟩
abbrev main_c_9 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_11 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_13 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_14 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_15 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  bcast_S_S512x64 : S_.BroadcastsInDim S512x64 (![] : Fin 0 → Fin S512x64.rank)
  bcast_S50000_S50000x1_0 : S50000.BroadcastsInDim S50000x1 (![0] : Fin 1 → Fin S50000x1.rank)
  bcast_S1x64_S512x64_0_1 : S1x64.BroadcastsInDim S512x64 (![0, 1] : Fin 2 → Fin S512x64.rank)
  bcast_S_S64 : S_.BroadcastsInDim S64 (![] : Fin 0 → Fin S64.rank)
  bcast_S24_S1x24_1 : S24.BroadcastsInDim S1x24 (![1] : Fin 1 → Fin S1x24.rank)
  bcast_S1x24_S512x24_0_1 : S1x24.BroadcastsInDim S512x24 (![0, 1] : Fin 2 → Fin S512x24.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x64_S50000x64_1_0_0_1_n_n_wf : DotDims.WF S50000x100 S100x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x24_S512x24_1_0_0_1_n_n_wf : DotDims.WF S512x64 S64x24 S512x24 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x24_S512x24_1_0_0_1_n_n : DotDims S512x64 S64x24 S512x24 where
  lhsContracting := [1]
  rhsContracting := [0]
  lhsNonContracting := [0]
  rhsNonContracting := [1]
  lhsBatch := []
  rhsBatch := []
  wf := dot_S512x64_S64x24_S512x24_1_0_0_1_n_n_wf

class Facts : Prop extends Facts₀ where

variable [Facts]
-- ==== Proof.Kernel.Reg0.lean ====
import proofs.«410414_j13597866459249_2_alg».proof.Proof.Kernel.LaunchP
import proofs.«410414_j13597866459249_2_alg».proof.Proof.Gen.Kernel.Skeleton
import proofs.«410414_j13597866459249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x100 := Rect.unit (s := S2000x100) ![0, 0] S2000x100.size inb_S2000x100_S2000x100_0_0
abbrev r0_1 : Rect S100x64 := Rect.unit (s := S100x64) ![0, 0] S100x64.size inb_S100x64_S100x64_0_0
abbrev r0_2 : Rect S2000x64 := Rect.unit (s := S2000x64) ![0, 0] S2000x64.size inb_S2000x64_S2000x64_0_0

noncomputable def out0_2 (x0 : Vec F S2000x100 .f32) (x1 : Vec F S100x64 .f32) : Vec F S2000x64 .f32 :=
  View.canon [⟨r0_2, k0_pay1 (View.ld x0 r0_0) (View.ld x1 r0_1)⟩]

noncomputable def out0_3 (x0 : Vec F S2000x100 .f32) (x1 : Vec F S100x64 .f32) : Vec F S2000x64 .bf16 :=
  View.canon [⟨r0_2, k0_pay2 (View.ld x0 r0_0) (View.ld x1 r0_1)⟩]

theorem cover0_2 (p0 : Vec F S2000x64 .f32) (y : S2000x64.Idx) :
    ∃ pc ∈ ([⟨r0_2, p0⟩] : List (View.Piece (Elt F) S2000x64 .f32)), y ∈ pc.1.set :=
  View.cover_of_tiled [⟨r0_2, p0⟩] S2000x64.size (by rfl) y

theorem cover0_3 (p0 : Vec F S2000x64 .bf16) (y : S2000x64.Idx) :
    ∃ pc ∈ ([⟨r0_2, p0⟩] : List (View.Piece (Elt F) S2000x64 .bf16)), y ∈ pc.1.set :=
  View.cover_of_tiled [⟨r0_2, p0⟩] S2000x64.size (by rfl) y

set_option maxHeartbeats 4000000 in

theorem sound_kernel0 (c : Dev nD) (E : Set ℕ) (i : grid0.Coords) (arg1 : Memref sig .tc .vmem S2000x100 .f32) (harg1 : arg1.IsWhole) (arg2 : Memref sig .tc .vmem S100x64 .f32) (harg2 : arg2.IsWhole) (arg3 : Memref sig .tc .vmem S2000x64 .f32) (harg3 : arg3.IsWhole) (arg4 : Memref sig .tc .vmem S2000x64 .bf16) (harg4 : arg4.IsWhole)
    (x0 : Vec F S2000x100 .f32) (x1 : Vec F S100x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  iframe H0 H1
  isplitl [H2]; · iexists _; iexact H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem Φ_eq0 (c : Dev nD) (t : Fin (cfg0.N + 1)) : (dat0 V c).Φ t = Pipeline.ΦA spec0 c := rfl

end Region0
end Cert.Kernel.Hand

end
-- ==== Proof.Kernel.Reg1.lean ====
import proofs.«410414_j13597866459249_2_alg».proof.Proof.Kernel.LaunchP
import proofs.«410414_j13597866459249_2_alg».proof.Proof.Gen.Kernel.Skeleton
import proofs.«410414_j13597866459249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

section Frame

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1A : Rect S2000x64 := Rect.unit (s := S2000x64) ![0, 0] S2000x64.size inb_S2000x64_S2000x64_0_0
abbrev r1B : Rect S1x64 := Rect.unit (s := S1x64) ![0, 0] S1x64.size inb_S1x64_S1x64_0_0
abbrev r1C : Rect S64x64 := Rect.unit (s := S64x64) ![0, 0] S64x64.size inb_S64x64_S64x64_0_0

def out1_5 (x0 x1 : Vec F S2000x64 .f32) (x2 : Vec F S1x64 .f32) (x3 : Vec F S64x64 .f32) (x4 : Vec F S1x64 .f32) : Vec F S2000x64 .f32 :=
  View.canon [⟨r1A, k1_pay1 (View.ld x0 r1A) (View.ld x1 r1A) (View.ld x2 r1B) (View.ld x3 r1C) (View.ld x4 r1B)⟩]

def out1_6 (x0 x1 : Vec F S2000x64 .f32) (x2 : Vec F S1x64 .f32) (x3 : Vec F S64x64 .f32) (x4 : Vec F S1x64 .f32) : Vec F S2000x64 .bf16 :=
  View.canon [⟨r1A, k1_pay2 (View.ld x0 r1A) (View.ld x1 r1A) (View.ld x2 r1B) (View.ld x3 r1C) (View.ld x4 r1B)⟩]

theorem cover1 {e : EltTy} (p0 : Vec F S2000x64 e) (y : S2000x64.Idx) :
    ∃ pc ∈ ([⟨r1A, p0⟩] : List (View.Piece (Elt F) S2000x64 e)), y ∈ pc.1.set :=
  View.cover_of_tiled [⟨r1A, p0⟩] S2000x64.size (by rfl) y

set_option maxHeartbeats 4000000 in

theorem sound_kernel1 (c : Dev nD) (E : Set ℕ) (i : grid1.Coords)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2000x64 .f32) (harg6 : arg6.IsWhole)
    (arg7 : Memref sig .tc .vmem S2000x64 .bf16) (harg7 : arg7.IsWhole)
    (x0 x1 : Vec F S2000x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__gin_layer0_kernel i arg1 harg1 arg2 harg2 arg3 harg3 arg4 harg4 arg5 harg5 arg6 harg6 arg7 harg7) K := by
  simp only [cc1__gin_layer0_kernel_eq_skeleton]; unfold cc1__gin_layer0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  iexists _; isplitr
  swap; · iexact H6
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t)
      ∧ (∀ d, (dat1 V c).before 1 t d = iblk1 V c 1 t)
      ∧ (∀ d, (dat1 V c).before 2 t d = iblk1 V c 2 t)
      ∧ (∀ d, (dat1 V c).before 3 t d = iblk1 V c 3 t)
      ∧ (∀ d, (dat1 V c).before 4 t d = iblk1 V c 4 t) := by
  refine ⟨fun d => ?_, fun d => ?_, fun d => ?_, fun d => ?_, fun d => ?_⟩ <;>
  exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have b := before1 V c t
  simp only [b.1, b.2.1, b.2.2.1, b.2.2.2.1, b.2.2.2.2]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Frame
end Cert.Kernel.Hand

end
-- ==== Proof.Kernel.Reg2.lean ====
import proofs.«410414_j13597866459249_2_alg».proof.Proof.Kernel.LaunchP
import proofs.«410414_j13597866459249_2_alg».proof.Proof.Gen.Kernel.Skeleton
import proofs.«410414_j13597866459249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_a : Rect S2000x64 := Rect.unit (s := S2000x64) ![0, 0] S2000x64.size inb_S2000x64_S2000x64_0_0
abbrev rect2_w : Rect S64x64 := Rect.unit (s := S64x64) ![0, 0] S64x64.size inb_S64x64_S64x64_0_0
abbrev rect2_b : Rect S1x64 := Rect.unit (s := S1x64) ![0, 0] S1x64.size inb_S1x64_S1x64_0_0

def out2_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨rect2_a, k2_pay1 (View.ld x0 rect2_a) (View.ld x1 rect2_a) (View.ld x2 rect2_w) (View.ld x3 rect2_b) (View.ld x4 rect2_w) (View.ld x5 rect2_b)⟩]

def out2_7 (x0 : Vec F S2000x64 .f32) (x1 : Vec F S2000x64 .f32) (x2 : Vec F S64x64 .f32) (x3 : Vec F S1x64 .f32) (x4 : Vec F S64x64 .f32) (x5 : Vec F S1x64 .f32) : Vec F S2000x64 .bf16 :=
  View.canon [⟨rect2_a, k2_pay2 (View.ld x0 rect2_a) (View.ld x1 rect2_a) (View.ld x2 rect2_w) (View.ld x3 rect2_b) (View.ld x4 rect2_w) (View.ld x5 rect2_b)⟩]

theorem cover2 {e : EltTy} (p0 : Vec F S2000x64 e) (y : S2000x64.Idx) :
    ∃ pc ∈ ([⟨rect2_a, p0⟩] : List (View.Piece (Elt F) S2000x64 e)), y ∈ pc.1.set :=
  View.cover_of_tiled [⟨rect2_a, p0⟩] S2000x64.size (by rfl) y

set_option maxHeartbeats 4000000 in

theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S2000x64 .f32) (harg7 : arg7.IsWhole) (arg8 : Memref sig .tc .vmem S2000x64 .bf16) (harg8 : arg8.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t)
      ∧ (∀ d, (dat2 V c).before 1 t d = iblk2 V c 1 t)
      ∧ (∀ d, (dat2 V c).before 2 t d = iblk2 V c 2 t)
      ∧ (∀ d, (dat2 V c).before 3 t d = iblk2 V c 3 t)
      ∧ (∀ d, (dat2 V c).before 4 t d = iblk2 V c 4 t)
      ∧ (∀ d, (dat2 V c).before 5 t d = iblk2 V c 5 t) := by
  refine ⟨fun d => ?_, fun d => ?_, fun d => ?_, fun d => ?_, fun d => ?_, fun d => ?_⟩ <;>
  exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have b := before2 V c t
  simp only [b.1, b.2.1, b.2.2.1, b.2.2.2.1, b.2.2.2.2.1, b.2.2.2.2.2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  isplitl [H7]; · iexists _; iexact H7
  iintro ⟨H0, H1, H2, H3, H4, H5, H6, H7⟩
  iframe

theorem body_obligation2 (c : Dev nD) : BodyObligation (dat2 (F := F) V c) (defs₀ (F := F)) Variants.none () Set.univ := fun t => by
  rw [bigSep_W2, bigSep_W2]
  exact sound_body2 V c t

end Frame

end Cert.Kernel.Hand

end
-- ==== Proof.Kernel.Reg3.lean ====
import proofs.«410414_j13597866459249_2_alg».proof.Proof.Kernel.LaunchP
import proofs.«410414_j13597866459249_2_alg».proof.Proof.Gen.Kernel.Skeleton
import proofs.«410414_j13597866459249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rect3_a : Rect S2000x64 := Rect.unit (s := S2000x64) ![0, 0] S2000x64.size inb_S2000x64_S2000x64_0_0
abbrev rect3_w : Rect S64x64 := Rect.unit (s := S64x64) ![0, 0] S64x64.size inb_S64x64_S64x64_0_0
abbrev rect3_b : Rect S1x64 := Rect.unit (s := S1x64) ![0, 0] S1x64.size inb_S1x64_S1x64_0_0

def out3_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨rect3_a, k3_pay1 (View.ld x0 rect3_a) (View.ld x1 rect3_a) (View.ld x2 rect3_w) (View.ld x3 rect3_b) (View.ld x4 rect3_w) (View.ld x5 rect3_b)⟩]

def out3_7 (x0 : Vec F S2000x64 .f32) (x1 : Vec F S2000x64 .f32) (x2 : Vec F S64x64 .f32) (x3 : Vec F S1x64 .f32) (x4 : Vec F S64x64 .f32) (x5 : Vec F S1x64 .f32) : Vec F S2000x64 .bf16 :=
  View.canon [⟨rect3_a, k3_pay2 (View.ld x0 rect3_a) (View.ld x1 rect3_a) (View.ld x2 rect3_w) (View.ld x3 rect3_b) (View.ld x4 rect3_w) (View.ld x5 rect3_b)⟩]

theorem cover3 {e : EltTy} (p0 : Vec F S2000x64 e) (y : S2000x64.Idx) :
    ∃ pc ∈ ([⟨rect3_a, p0⟩] : List (View.Piece (Elt F) S2000x64 e)), y ∈ pc.1.set :=
  View.cover_of_tiled [⟨rect3_a, p0⟩] S2000x64.size (by rfl) y

set_option maxHeartbeats 4000000 in

theorem sound_kernel3 (c : Dev nD) (E : Set ℕ) (i : grid3.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S2000x64 .f32) (harg7 : arg7.IsWhole) (arg8 : Memref sig .tc .vmem S2000x64 .bf16) (harg8 : arg8.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__gin_layer_kernel i arg1 harg1 arg2 harg2 arg3 harg3 arg4 harg4 arg5 harg5 arg6 harg6 arg7 harg7 arg8 harg8) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3 _)
  iexists _; isplitr
  swap; · iexact H7
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t)
      ∧ (∀ d, (dat3 V c).before 1 t d = iblk3 V c 1 t)
      ∧ (∀ d, (dat3 V c).before 2 t d = iblk3 V c 2 t)
      ∧ (∀ d, (dat3 V c).before 3 t d = iblk3 V c 3 t)
      ∧ (∀ d, (dat3 V c).before 4 t d = iblk3 V c 4 t)
      ∧ (∀ d, (dat3 V c).before 5 t d = iblk3 V c 5 t) := by
  refine ⟨fun d => ?_, fun d => ?_, fun d => ?_, fun d => ?_, fun d => ?_, fun d => ?_⟩ <;>
  exact ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  have b := before3 V c t
  simp only [b.1, b.2.1, b.2.2.1, b.2.2.2.1, b.2.2.2.2.1, b.2.2.2.2.2]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  isplitl [H7]; · iexists _; iexact H7
  iintro ⟨H0, H1, H2, H3, H4, H5, H6, H7⟩
  iframe

theorem body_obligation3 (c : Dev nD) : BodyObligation (dat3 (F := F) V c) (defs₀ (F := F)) Variants.none () Set.univ := fun t => by
  rw [bigSep_W3, bigSep_W3]
  exact sound_body3 V c t

end Frame

end Cert.Kernel.Hand

end
-- ==== Proof.Kernel.Reg4.lean ====
import proofs.«410414_j13597866459249_2_alg».proof.Proof.Kernel.LaunchP
import proofs.«410414_j13597866459249_2_alg».proof.Proof.Gen.Kernel.Skeleton
import proofs.«410414_j13597866459249_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.WholeRead
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def step4 (c : Dev nD) (t : Fin cfg4.N) (x : Vec F S512x64 .f32) : Vec F S512x64 .f32 :=
  k4_pay1 (k4_pay5 (iblk4 V c 0 t) (iblk4 V c 4 t) (iblk4 V c 1 t) (iblk4 V c 5 t) (iblk4 V c 2 t) (iblk4 V c 6 t) (iblk4 V c 7 t))
    (k4_pay6 (iblk4 V c 3 t)) x

noncomputable def acc4 (c : Dev nD) : (n : ℕ) → n < cfg4.N → Vec F S512x64 .f32
  | 0, hn => step4 V c ⟨0, hn⟩ (k4_pay4 (F := F))
  | n + 1, hn => step4 V c ⟨n + 1, hn⟩ (acc4 c n (Nat.lt_of_succ_lt hn))

theorem acc4_zero (c : Dev nD) (hn : 0 < cfg4.N) : acc4 V c 0 hn = step4 V c ⟨0, hn⟩ (k4_pay4 (F := F)) := rfl

theorem acc4_succ (c : Dev nD) (n : ℕ) (hn : n + 1 < cfg4.N) :
    acc4 V c (n + 1) hn = step4 V c ⟨n + 1, hn⟩ (acc4 V c n (Nat.lt_of_succ_lt hn)) := rfl

noncomputable def out4 (c : Dev nD) (t : Fin cfg4.N) : Vec F S512x24 .f32 :=
  k4_pay2 (k4_pay3 (acc4 V c t.val t.isLt) (iblk4 V c 8 t) (iblk4 V c 9 t) (iblk4 V c 12 t) (iblk4 V c 13 t) (iblk4 V c 10 t) (iblk4 V c 11 t)
      (iblk4 V c 14 t) (iblk4 V c 15 t)) (iblk4 V c 16 t) (iblk4 V c 17 t)

abbrev cond4_1 (i : grid4.Coords) : Prop := (Scalar.cmpi .ne (Scalar.extui (Scalar.cmpi .eq (BitVec.ofNat 32 (i 0).val) 0#32)) 0#32) = 1#1

theorem hcond4_1 : ∀ t : Fin cfg4.N, cond4_1 (grid4.coords t) ↔ t.val = 0 :=
  (by decide +kernel : ∀ t : Fin grid4.N, cond4_1 (grid4.coords t) ↔ t.val = 0)

abbrev cond4_2 (i : grid4.Coords) : Prop := k4_cond2 i = 1#1

theorem hcond4_2 : ∀ t : Fin cfg4.N, cond4_2 (grid4.coords t) ↔ t.val = 24 :=
  (by decide +kernel : ∀ t : Fin grid4.N, cond4_2 (grid4.coords t) ↔ t.val = 24)

theorem read_writes_whole {κ : Kind} {sp : Space} {S : Shape} {e : EltTy} (v : View sig κ sp S e) (f : v.ty.Contents (Elt F))
    (off : Fin S.rank → ℕ) (hoff : ∀ a, off a = 0) (inb : ∀ a, off a + S.size a ≤ S.size a)
    (w : S.Idx → Elt F e) (L : List (View.Piece (Elt F) S e)) :
    v.read (Elt F) (v.writes (Elt F) f (⟨Rect.unit (s := S) off S.size inb, w⟩ :: L)) = w := by
  funext y
  have hy : (Rect.unit (s := S) off S.size inb).emb y = y :=
    funext fun a => Fin.ext (by rw [Rect.emb_apply]; show off a + 1 * (y a).val = (y a).val; rw [hoff a]; omega)
  have h := View.read_writes_cons_emb v f (Rect.unit (s := S) off S.size inb) w L y
  rw [hy] at h; exact h

theorem readAt_whole {κ : Kind} {sp : Space} {S : Shape} {e : EltTy} {m : Memref sig κ sp S e} (h : m.IsWhole) (X : S.Idx → Elt F e)
    (off : Fin S.rank → ℕ) (hoff : ∀ a, off a = 0) (inb : ∀ a, off a + S.size a ≤ S.size a) :
    View.readAt (Elt F) m.view (Rect.unit (s := S) off S.size inb).toLoadRect (h.unread X) = X := by
  funext x
  rw [h.readAt_unread]
  congr 1
  exact funext fun a => Fin.ext (by show off a + 1 * (x a).val = (x a).val; rw [hoff a]; omega)

theorem off00 : ∀ a : Fin 2, (![0, 0] : Fin 2 → ℕ) a = 0 := by decide

/-- A whole buffer left as it was found is still owned, at the contents it was found at. -/
theorem keep_whole (c : Dev nD) {S : Shape} {e : EltTy} {a : Memref sig .tc .vmem S e} (h : a.IsWhole) (x : S.Idx → Elt F e) :
    (a.view.loc (c : Thread nD τ) ↦[a.view.set]{fullShare} h.unread x : sProp 𝕄)
      ⊢ iprop(∃ f, ⌜a.view.read (Elt F) f = x⌝ ∗ (a.view.loc (c : Thread nD τ) ↦[a.view.set]{fullShare} f)) := by
  iintro H; iexists _; isplitr; · ipureintro; exact h.read_unread _
  iexact H

section Runs

variable (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x24 .f32) (harg17 : arg17.IsWhole) (arg18 : Memref sig .tc .vmem S1x24 .f32) (harg18 : arg18.IsWhole) (arg19 : Memref sig .tc .vmem S512x24 .f32) (harg19 : arg19.IsWhole) (arg20 : Memref sig .tc .vmem S512x64 .f32) (harg20 : arg20.IsWhole)
  (x0 : Vec F S2000x64 .f32) (x1 : Vec F S2000x64 .f32) (x2 : Vec F S2000x64 .f32) (x3 : Vec F S2000x1 .i32) (x4 : Vec F S64x64 .f32) (x5 : Vec F S64x64 .f32) (x6 : Vec F S64x64 .f32) (x7 : Vec F S1x64 .f32) (x8 : Vec F S64x64 .f32) (x9 : Vec F S1x64 .f32) (x10 : Vec F S1x64 .f32) (x11 : Vec F S1x64 .f32) (x12 : Vec F S1x64 .f32) (x13 : Vec F S1x64 .f32) (x14 : Vec F S64x64 .f32) (x15 : Vec F S1x64 .f32) (x16 : Vec F S64x24 .f32) (x17 : Vec F S1x24 .f32)

/-- The body's triple over whole buffers: the eighteen inputs are kept at their contents, the output's and the accumulator's buffers go
    from `P19`, `P20` to `Q19`, `Q20`. -/
def RunSpec (P19 P20 Q19 Q20 : sProp 𝕄) : Prop := ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ P19 ∗ P20
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ Q19 ∗ Q20) -∗ K ⟨⟩))
      ⊢ wp frame (wpE (defs₀ (F := F)) Variants.none c none) E (cc4__jk_pool_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K

set_option maxHeartbeats 4000000 in
theorem run4_B (hc1 : ¬cond4_1 i) (hc2 : ¬cond4_2 i) (xo : Vec F S512x24 .f32) (xs : Vec F S512x64 .f32) :
    RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      (owns (c : Thread nD τ) arg19 fullShare xo) (owns (c : Thread nD τ) arg20 fullShare xs)
      (owns (c : Thread nD τ) arg19 fullShare xo)
      (owns (c : Thread nD τ) arg20 fullShare (k4_pay1 (k4_pay5 x0 x4 x1 x5 x2 x6 x7) (k4_pay6 x3) xs)) := by
  intro E K
  simp only [cc4__jk_pool_head_kernel_eq_skeleton]; unfold cc4__jk_pool_head_kernel_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fo, %hfo, Ho⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg19.eq_unread hfo; obtain rfl := harg20.eq_unread hfs
  sl_exec (disch := first | exact hc1 | exact hc2)
  sl_step
  iapply Hk
  isplitl [H0]; · iapply keep_whole c harg1; iexact H0
  isplitl [H1]; · iapply keep_whole c harg2; iexact H1
  isplitl [H2]; · iapply keep_whole c harg3; iexact H2
  isplitl [H3]; · iapply keep_whole c harg4; iexact H3
  isplitl [H4]; · iapply keep_whole c harg5; iexact H4
  isplitl [H5]; · iapply keep_whole c harg6; iexact H5
  isplitl [H6]; · iapply keep_whole c harg7; iexact H6
  isplitl [H7]; · iapply keep_whole c harg8; iexact H7
  isplitl [H8]; · iapply keep_whole c harg9; iexact H8
  isplitl [H9]; · iapply keep_whole c harg10; iexact H9
  isplitl [H10]; · iapply keep_whole c harg11; iexact H10
  isplitl [H11]; · iapply keep_whole c harg12; iexact H11
  isplitl [H12]; · iapply keep_whole c harg13; iexact H12
  isplitl [H13]; · iapply keep_whole c harg14; iexact H13
  isplitl [H14]; · iapply keep_whole c harg15; iexact H14
  isplitl [H15]; · iapply keep_whole c harg16; iexact H15
  isplitl [H16]; · iapply keep_whole c harg17; iexact H16
  isplitl [H17]; · iapply keep_whole c harg18; iexact H17
  isplitl [Ho]; · iapply keep_whole c harg19; iexact Ho
  iexists _; isplitr
  swap; · iexact HS
  ipureintro
  sl_unfold_run_names
  simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

set_option maxHeartbeats 4000000 in
theorem run4_A (hc1 : cond4_1 i) (hc2 : ¬cond4_2 i) (xo : Vec F S512x24 .f32) :
    RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      (owns (c : Thread nD τ) arg19 fullShare xo) iprop(∃ d, owns (c : Thread nD τ) arg20 fullShare d)
      (owns (c : Thread nD τ) arg19 fullShare xo)
      (owns (c : Thread nD τ) arg20 fullShare (k4_pay1 (k4_pay5 x0 x4 x1 x5 x2 x6 x7) (k4_pay6 x3) (k4_pay4 (F := F)))) := by
  intro E K
  simp only [cc4__jk_pool_head_kernel_eq_skeleton]; unfold cc4__jk_pool_head_kernel_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fo, %hfo, Ho⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg19.eq_unread hfo
  sl_exec (disch := first | exact hc1 | exact hc2)
  sl_step
  iapply Hk
  isplitl [H0]; · iapply keep_whole c harg1; iexact H0
  isplitl [H1]; · iapply keep_whole c harg2; iexact H1
  isplitl [H2]; · iapply keep_whole c harg3; iexact H2
  isplitl [H3]; · iapply keep_whole c harg4; iexact H3
  isplitl [H4]; · iapply keep_whole c harg5; iexact H4
  isplitl [H5]; · iapply keep_whole c harg6; iexact H5
  isplitl [H6]; · iapply keep_whole c harg7; iexact H6
  isplitl [H7]; · iapply keep_whole c harg8; iexact H7
  isplitl [H8]; · iapply keep_whole c harg9; iexact H8
  isplitl [H9]; · iapply keep_whole c harg10; iexact H9
  isplitl [H10]; · iapply keep_whole c harg11; iexact H10
  isplitl [H11]; · iapply keep_whole c harg12; iexact H11
  isplitl [H12]; · iapply keep_whole c harg13; iexact H12
  isplitl [H13]; · iapply keep_whole c harg14; iexact H13
  isplitl [H14]; · iapply keep_whole c harg15; iexact H14
  isplitl [H15]; · iapply keep_whole c harg16; iexact H15
  isplitl [H16]; · iapply keep_whole c harg17; iexact H16
  isplitl [H17]; · iapply keep_whole c harg18; iexact H17
  isplitl [Ho]; · iapply keep_whole c harg19; iexact Ho
  iexists _; isplitr
  swap; · iexact HS
  ipureintro
  sl_unfold_run_names
  simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

set_option maxHeartbeats 4000000 in
theorem run4_C (hc1 : ¬cond4_1 i) (hc2 : cond4_2 i) (xs : Vec F S512x64 .f32) :
    RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      iprop(∃ d, owns (c : Thread nD τ) arg19 fullShare d) (owns (c : Thread nD τ) arg20 fullShare xs)
      (owns (c : Thread nD τ) arg19 fullShare (k4_pay2 (k4_pay3 (k4_pay1 (k4_pay5 x0 x4 x1 x5 x2 x6 x7) (k4_pay6 x3) xs) x8 x9 x12 x13 x10 x11 x14 x15) x16 x17))
      (owns (c : Thread nD τ) arg20 fullShare (k4_pay1 (k4_pay5 x0 x4 x1 x5 x2 x6 x7) (k4_pay6 x3) xs)) := by
  intro E K
  simp only [cc4__jk_pool_head_kernel_eq_skeleton]; unfold cc4__jk_pool_head_kernel_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d_o, %fo, -, Ho⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg20.eq_unread hfs
  sl_exec (disch := first | exact hc1 | exact hc2)
  sl_step
  iapply Hk
  isplitl [H0]; · iapply keep_whole c harg1; iexact H0
  isplitl [H1]; · iapply keep_whole c harg2; iexact H1
  isplitl [H2]; · iapply keep_whole c harg3; iexact H2
  isplitl [H3]; · iapply keep_whole c harg4; iexact H3
  isplitl [H4]; · iapply keep_whole c harg5; iexact H4
  isplitl [H5]; · iapply keep_whole c harg6; iexact H5
  isplitl [H6]; · iapply keep_whole c harg7; iexact H6
  isplitl [H7]; · iapply keep_whole c harg8; iexact H7
  isplitl [H8]; · iapply keep_whole c harg9; iexact H8
  isplitl [H9]; · iapply keep_whole c harg10; iexact H9
  isplitl [H10]; · iapply keep_whole c harg11; iexact H10
  isplitl [H11]; · iapply keep_whole c harg12; iexact H11
  isplitl [H12]; · iapply keep_whole c harg13; iexact H12
  isplitl [H13]; · iapply keep_whole c harg14; iexact H13
  isplitl [H14]; · iapply keep_whole c harg15; iexact H14
  isplitl [H15]; · iapply keep_whole c harg16; iexact H15
  isplitl [H16]; · iapply keep_whole c harg17; iexact H16
  isplitl [H17]; · iapply keep_whole c harg18; iexact H17
  isplitl [Ho]
  · iexists _; isplitr
    swap; · iexact Ho
    ipureintro
    sl_unfold_run_names
    simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

  iexists _; isplitr
  swap; · iexact HS
  ipureintro
  sl_unfold_run_names
  simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

end Runs

abbrev scM4 : Memref sig .tc .vmem S512x64 .f32 := Memref.whole cc4_scratch0

noncomputable def Phi4 (c : Dev nD) : (n : ℕ) → n ≤ cfg4.N → sProp 𝕄
  | 0, _ => Pipeline.ΦA spec4 c
  | n + 1, hn => iprop(owns (c : Thread nD τ) scM4 fullShare (acc4 V c n hn) ∗ Pipeline.scopedRestBut (Ix := Unit) (Name := ℕ) (U := UR sig nD τ) (Lvl := ℕ) (Val := Elt F) spec4 c [cc4_scratch0] ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) scM4 fullShare (acc4 V c n hn) ∗ Pipeline.scopedRestBut (Ix := Unit) (Name := ℕ) (U := UR sig nD τ) (Lvl := ℕ) (Val := Elt F) spec4 c [cc4_scratch0] ∗ (∃ r, prngReg c r)) := rfl

theorem Phi4_pos (c : Dev nD) (n : ℕ) (h : n ≤ cfg4.N) (hz : n ≠ 0) :
    Phi4 V c n h = iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl

theorem PhiA4_eq (c : Dev nD) :
    (Pipeline.ΦA spec4 c : sProp 𝕄)
      = iprop(iprop(iprop(∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

theorem acc4_first (c : Dev nD) (t : Fin cfg4.N) (h : t.val = 0) :
    acc4 V c t.val t.isLt = step4 V c t (k4_pay4 (F := F)) := by
  obtain ⟨n, hn⟩ := t
  cases n with
  | zero => rfl
  | succ n => exact absurd h (Nat.succ_ne_zero n)

theorem acc4_later (c : Dev nD) (t : Fin cfg4.N) (h : t.val ≠ 0) :
    acc4 V c t.val t.isLt = step4 V c t (acc4 V c (t.val - 1) (Nat.lt_of_le_of_lt (Nat.sub_le _ _) t.isLt)) := by
  obtain ⟨n, hn⟩ := t
  cases n with
  | zero => exact absurd rfl h
  | succ n => rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => out4 V c t
    | ⟨_ + 19, h⟩ => absurd h (Nat.not_lt.2 (Nat.le_add_left _ _))
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = iblk4 V c 3 t := rfl
theorem after4_4 (c : Dev nD) (t : Fin cfg4.N) : (dat4 V c).after 4 t = iblk4 V c 4 t := rfl
theorem after4_5 (c : Dev nD) (t : Fin cfg4.N) : (dat4 V c).after 5 t = iblk4 V c 5 t := rfl
theorem after4_6 (c : Dev nD) (t : Fin cfg4.N) : (dat4 V c).after 6 t = iblk4 V c 6 t := rfl
theorem after4_7 (c : Dev nD) (t : Fin cfg4.N) : (dat4 V c).after 7 t = iblk4 V c 7 t := rfl
theorem after4_8 (c : Dev nD) (t : Fin cfg4.N) : (dat4 V c).after 8 t = iblk4 V c 8 t := rfl
theorem after4_9 (c : Dev nD) (t : Fin cfg4.N) : (dat4 V c).after 9 t = iblk4 V c 9 t := rfl
theorem after4_10 (c : Dev nD) (t : Fin cfg4.N) : (dat4 V c).after 10 t = iblk4 V c 10 t := rfl
theorem after4_11 (c : Dev nD) (t : Fin cfg4.N) : (dat4 V c).after 11 t = iblk4 V c 11 t := rfl
theorem after4_12 (c : Dev nD) (t : Fin cfg4.N) : (dat4 V c).after 12 t = iblk4 V c 12 t := rfl
theorem after4_13 (c : Dev nD) (t : Fin cfg4.N) : (dat4 V c).after 13 t = iblk4 V c 13 t := rfl
theorem after4_14 (c : Dev nD) (t : Fin cfg4.N) : (dat4 V c).after 14 t = iblk4 V c 14 t := rfl
theorem after4_15 (c : Dev nD) (t : Fin cfg4.N) : (dat4 V c).after 15 t = iblk4 V c 15 t := rfl
theorem after4_16 (c : Dev nD) (t : Fin cfg4.N) : (dat4 V c).after 16 t = iblk4 V c 16 t := rfl
theorem after4_17 (c : Dev nD) (t : Fin cfg4.N) : (dat4 V c).after 17 t = iblk4 V c 17 t := rfl
theorem after4_18 (c : Dev nD) (t : Fin cfg4.N) : (dat4 V c).after 18 t = out4 V c t := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d
theorem before4_6 (c : Dev nD) (t : Fin cfg4.N) (d) : (dat4 V c).before 6 t d = iblk4 V c 6 t :=
  (dat4 V c).before_in_eq_fetched 6 rfl (fun _ => rfl) (fun _ _ _ => rfl) (fun _ => rfl) t d
theorem before4_7 (c : Dev nD) (t : Fin cfg4.N) (d) : (dat4 V c).before 7 t d = iblk4 V c 7 t :=
  (dat4 V c).before_in_eq_fetched 7 rfl (fun _ => rfl) (fun _ _ _ => rfl) (fun _ => rfl) t d
theorem before4_8 (c : Dev nD) (t : Fin cfg4.N) (d) : (dat4 V c).before 8 t d = iblk4 V c 8 t :=
  (dat4 V c).before_in_eq_fetched 8 rfl (fun _ => rfl) (fun _ _ _ => rfl) (fun _ => rfl) t d
theorem before4_9 (c : Dev nD) (t : Fin cfg4.N) (d) : (dat4 V c).before 9 t d = iblk4 V c 9 t :=
  (dat4 V c).before_in_eq_fetched 9 rfl (fun _ => rfl) (fun _ _ _ => rfl) (fun _ => rfl) t d
theorem before4_10 (c : Dev nD) (t : Fin cfg4.N) (d) : (dat4 V c).before 10 t d = iblk4 V c 10 t :=
  (dat4 V c).before_in_eq_fetched 10 rfl (fun _ => rfl) (fun _ _ _ => rfl) (fun _ => rfl) t d
theorem before4_11 (c : Dev nD) (t : Fin cfg4.N) (d) : (dat4 V c).before 11 t d = iblk4 V c 11 t :=
  (dat4 V c).before_in_eq_fetched 11 rfl (fun _ => rfl) (fun _ _ _ => rfl) (fun _ => rfl) t d
theorem before4_12 (c : Dev nD) (t : Fin cfg4.N) (d) : (dat4 V c).before 12 t d = iblk4 V c 12 t :=
  (dat4 V c).before_in_eq_fetched 12 rfl (fun _ => rfl) (fun _ _ _ => rfl) (fun _ => rfl) t d
theorem before4_13 (c : Dev nD) (t : Fin cfg4.N) (d) : (dat4 V c).before 13 t d = iblk4 V c 13 t :=
  (dat4 V c).before_in_eq_fetched 13 rfl (fun _ => rfl) (fun _ _ _ => rfl) (fun _ => rfl) t d
theorem before4_14 (c : Dev nD) (t : Fin cfg4.N) (d) : (dat4 V c).before 14 t d = iblk4 V c 14 t :=
  (dat4 V c).before_in_eq_fetched 14 rfl (fun _ => rfl) (fun _ _ _ => rfl) (fun _ => rfl) t d
theorem before4_15 (c : Dev nD) (t : Fin cfg4.N) (d) : (dat4 V c).before 15 t d = iblk4 V c 15 t :=
  (dat4 V c).before_in_eq_fetched 15 rfl (fun _ => rfl) (fun _ _ _ => rfl) (fun _ => rfl) t d
theorem before4_16 (c : Dev nD) (t : Fin cfg4.N) (d) : (dat4 V c).before 16 t d = iblk4 V c 16 t :=
  (dat4 V c).before_in_eq_fetched 16 rfl (fun _ => rfl) (fun _ _ _ => rfl) (fun _ => rfl) t d
theorem before4_17 (c : Dev nD) (t : Fin cfg4.N) (d) : (dat4 V c).before 17 t d = iblk4 V c 17 t :=
  (dat4 V c).before_in_eq_fetched 17 rfl (fun _ => rfl) (fun _ _ _ => rfl) (fun _ => rfl) t d

theorem idleAt4_18 : ∀ t : Fin cfg4.N, ¬cond4_2 (grid4.coords t) → cfg4.idle 18 (grid4.coords t) = true := by decide +kernel
theorem noFlush4_18 : ∀ t : Fin cfg4.N, ¬cond4_2 (grid4.coords t) → (cfg4.win 18).flush t = false := by decide +kernel
theorem liveAt4_18 : ∀ t : Fin cfg4.N, cond4_2 (grid4.coords t) → cfg4.idle 18 (grid4.coords t) = false := by decide +kernel

abbrev ms4_0 (t : Fin cfg4.N) : Memref sig .tc .vmem S2000x64 .f32 := win4_0.stage (cfg4.slots t 0)
abbrev ms4_1 (t : Fin cfg4.N) : Memref sig .tc .vmem S2000x64 .f32 := win4_1.stage (cfg4.slots t 1)
abbrev ms4_2 (t : Fin cfg4.N) : Memref sig .tc .vmem S2000x64 .f32 := win4_2.stage (cfg4.slots t 2)
abbrev ms4_3 (t : Fin cfg4.N) : Memref sig .tc .vmem S2000x1 .i32 := win4_3.stage (cfg4.slots t 3)
abbrev ms4_4 (t : Fin cfg4.N) : Memref sig .tc .vmem S64x64 .f32 := win4_4.stage (cfg4.slots t 4)
abbrev ms4_5 (t : Fin cfg4.N) : Memref sig .tc .vmem S64x64 .f32 := win4_5.stage (cfg4.slots t 5)
abbrev ms4_6 (t : Fin cfg4.N) : Memref sig .tc .vmem S64x64 .f32 := win4_6.stage (cfg4.slots t 6)
abbrev ms4_7 (t : Fin cfg4.N) : Memref sig .tc .vmem S1x64 .f32 := win4_7.stage (cfg4.slots t 7)
abbrev ms4_8 (t : Fin cfg4.N) : Memref sig .tc .vmem S64x64 .f32 := win4_8.stage (cfg4.slots t 8)
abbrev ms4_9 (t : Fin cfg4.N) : Memref sig .tc .vmem S1x64 .f32 := win4_9.stage (cfg4.slots t 9)
abbrev ms4_10 (t : Fin cfg4.N) : Memref sig .tc .vmem S1x64 .f32 := win4_10.stage (cfg4.slots t 10)
abbrev ms4_11 (t : Fin cfg4.N) : Memref sig .tc .vmem S1x64 .f32 := win4_11.stage (cfg4.slots t 11)
abbrev ms4_12 (t : Fin cfg4.N) : Memref sig .tc .vmem S1x64 .f32 := win4_12.stage (cfg4.slots t 12)
abbrev ms4_13 (t : Fin cfg4.N) : Memref sig .tc .vmem S1x64 .f32 := win4_13.stage (cfg4.slots t 13)
abbrev ms4_14 (t : Fin cfg4.N) : Memref sig .tc .vmem S64x64 .f32 := win4_14.stage (cfg4.slots t 14)
abbrev ms4_15 (t : Fin cfg4.N) : Memref sig .tc .vmem S1x64 .f32 := win4_15.stage (cfg4.slots t 15)
abbrev ms4_16 (t : Fin cfg4.N) : Memref sig .tc .vmem S64x24 .f32 := win4_16.stage (cfg4.slots t 16)
abbrev ms4_17 (t : Fin cfg4.N) : Memref sig .tc .vmem S1x24 .f32 := win4_17.stage (cfg4.slots t 17)
abbrev ms4_18 (t : Fin cfg4.N) : Memref sig .tc .vmem S512x24 .f32 := win4_18.stage (cfg4.slots t 18)

theorem leaves4_0 (c : Dev nD) (t : Fin cfg4.N) :
    (dat4 V c).leavesExact 0 t = owns (c : Thread nD τ) (ms4_0 t) fullShare (iblk4 V c 0 t) := rfl
theorem leaves4_1 (c : Dev nD) (t : Fin cfg4.N) :
    (dat4 V c).leavesExact 1 t = owns (c : Thread nD τ) (ms4_1 t) fullShare (iblk4 V c 1 t) := rfl
theorem leaves4_2 (c : Dev nD) (t : Fin cfg4.N) :
    (dat4 V c).leavesExact 2 t = owns (c : Thread nD τ) (ms4_2 t) fullShare (iblk4 V c 2 t) := rfl
theorem leaves4_3 (c : Dev nD) (t : Fin cfg4.N) :
    (dat4 V c).leavesExact 3 t = owns (c : Thread nD τ) (ms4_3 t) fullShare (iblk4 V c 3 t) := rfl
theorem leaves4_4 (c : Dev nD) (t : Fin cfg4.N) :
    (dat4 V c).leavesExact 4 t = owns (c : Thread nD τ) (ms4_4 t) fullShare (iblk4 V c 4 t) := rfl
theorem leaves4_5 (c : Dev nD) (t : Fin cfg4.N) :
    (dat4 V c).leavesExact 5 t = owns (c : Thread nD τ) (ms4_5 t) fullShare (iblk4 V c 5 t) := rfl
theorem leaves4_6 (c : Dev nD) (t : Fin cfg4.N) :
    (dat4 V c).leavesExact 6 t = owns (c : Thread nD τ) (ms4_6 t) fullShare (iblk4 V c 6 t) := rfl
theorem leaves4_7 (c : Dev nD) (t : Fin cfg4.N) :
    (dat4 V c).leavesExact 7 t = owns (c : Thread nD τ) (ms4_7 t) fullShare (iblk4 V c 7 t) := rfl
theorem leaves4_8 (c : Dev nD) (t : Fin cfg4.N) :
    (dat4 V c).leavesExact 8 t = owns (c : Thread nD τ) (ms4_8 t) fullShare (iblk4 V c 8 t) := rfl
theorem leaves4_9 (c : Dev nD) (t : Fin cfg4.N) :
    (dat4 V c).leavesExact 9 t = owns (c : Thread nD τ) (ms4_9 t) fullShare (iblk4 V c 9 t) := rfl
theorem leaves4_10 (c : Dev nD) (t : Fin cfg4.N) :
    (dat4 V c).leavesExact 10 t = owns (c : Thread nD τ) (ms4_10 t) fullShare (iblk4 V c 10 t) := rfl
theorem leaves4_11 (c : Dev nD) (t : Fin cfg4.N) :
    (dat4 V c).leavesExact 11 t = owns (c : Thread nD τ) (ms4_11 t) fullShare (iblk4 V c 11 t) := rfl
theorem leaves4_12 (c : Dev nD) (t : Fin cfg4.N) :
    (dat4 V c).leavesExact 12 t = owns (c : Thread nD τ) (ms4_12 t) fullShare (iblk4 V c 12 t) := rfl
theorem leaves4_13 (c : Dev nD) (t : Fin cfg4.N) :
    (dat4 V c).leavesExact 13 t = owns (c : Thread nD τ) (ms4_13 t) fullShare (iblk4 V c 13 t) := rfl
theorem leaves4_14 (c : Dev nD) (t : Fin cfg4.N) :
    (dat4 V c).leavesExact 14 t = owns (c : Thread nD τ) (ms4_14 t) fullShare (iblk4 V c 14 t) := rfl
theorem leaves4_15 (c : Dev nD) (t : Fin cfg4.N) :
    (dat4 V c).leavesExact 15 t = owns (c : Thread nD τ) (ms4_15 t) fullShare (iblk4 V c 15 t) := rfl
theorem leaves4_16 (c : Dev nD) (t : Fin cfg4.N) :
    (dat4 V c).leavesExact 16 t = owns (c : Thread nD τ) (ms4_16 t) fullShare (iblk4 V c 16 t) := rfl
theorem leaves4_17 (c : Dev nD) (t : Fin cfg4.N) :
    (dat4 V c).leavesExact 17 t = owns (c : Thread nD τ) (ms4_17 t) fullShare (iblk4 V c 17 t) := rfl

noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d))
    ∗ (∃ d, owns (c : Thread nD τ) (ms4_11 t) fullShare ((dat4 V c).before 11 t d))
    ∗ (∃ d, owns (c : Thread nD τ) (ms4_12 t) fullShare ((dat4 V c).before 12 t d))
    ∗ (∃ d, owns (c : Thread nD τ) (ms4_13 t) fullShare ((dat4 V c).before 13 t d))
    ∗ (∃ d, owns (c : Thread nD τ) (ms4_14 t) fullShare ((dat4 V c).before 14 t d))
    ∗ (∃ d, owns (c : Thread nD τ) (ms4_15 t) fullShare ((dat4 V c).before 15 t d))
    ∗ (∃ d, owns (c : Thread nD τ) (ms4_16 t) fullShare ((dat4 V c).before 16 t d))
    ∗ (∃ d, owns (c : Thread nD τ) (ms4_17 t) fullShare ((dat4 V c).before 17 t d))
    ∗ (∃ d, owns (c : Thread nD τ) (ms4_18 t) fullShare ((dat4 V c).before 18 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t
    ∗ (dat4 V c).leavesExact 11 t
    ∗ (dat4 V c).leavesExact 12 t
    ∗ (dat4 V c).leavesExact 13 t
    ∗ (dat4 V c).leavesExact 14 t
    ∗ (dat4 V c).leavesExact 15 t
    ∗ (dat4 V c).leavesExact 16 t
    ∗ (dat4 V c).leavesExact 17 t
    ∗ (dat4 V c).leavesExact 18 t)

set_option maxHeartbeats 8000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3, leaves4_4, leaves4_5, leaves4_6, leaves4_7, leaves4_8, leaves4_9, leaves4_10, leaves4_11, leaves4_12, leaves4_13, leaves4_14, leaves4_15, leaves4_16, leaves4_17]
  have hN : t.val < 25 := lt_of_lt_of_eq t.isLt (show cfg4.N = 25 from N_4)
  by_cases h1 : t.val = 0
  · have h2 : ¬t.val = 24 := by omega
    rw [Dat.leavesExact_idle (dat4 V c) 18 t (idleAt4_18 t (fun h => h2 ((hcond4_2 t).mp h))) (noFlush4_18 t (fun h => h2 ((hcond4_2 t).mp h)))]
    rw [Phi4_castSucc V c t, Phi4_zero V c _ _ h1, PhiA4_eq, acc4_first V c t h1]
    unfold step4
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run4_A c (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) ((hcond4_1 t).mpr h1) (fun h => h2 ((hcond4_2 t).mp h)) _ Set.univ _)
    iframe H0 H1 H2 H3 H4 H5 H6 H7 H8 H9 H10 H11 H12 H13 H14 H15 H16 H17 H18 HS
    iintro ⟨H0, H1, H2, H3, H4, H5, H6, H7, H8, H9, H10, H11, H12, H13, H14, H15, H16, H17, H18, HS⟩
    iframe HS Hrest Hg Ho H0 H1 H2 H3 H4 H5 H6 H7 H8 H9 H10 H11 H12 H13 H14 H15 H16 H17
    iexists _; iexact H18
  · by_cases h2 : t.val = 24
    · rw [show (dat4 V c).leavesExact 18 t = owns (c : Thread nD τ) (ms4_18 t) fullShare ((dat4 V c).after 18 t) from by
        unfold Dat.leavesExact; rw [liveAt4_18 t ((hcond4_2 t).mpr h2)], after4_18]
      unfold out4
      rw [Phi4_castSucc V c t, Phi4_pos V c _ _ h1, acc4_later V c t h1]
      unfold step4
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run4_C c (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (fun h => h1 ((hcond4_1 t).mp h)) ((hcond4_2 t).mpr h2) _ Set.univ _)
      iframe H0 H1 H2 H3 H4 H5 H6 H7 H8 H9 H10 H11 H12 H13 H14 H15 H16 H17 HS
      isplitl [H18]; · iexists _; iexact H18
      iintro ⟨H0, H1, H2, H3, H4, H5, H6, H7, H8, H9, H10, H11, H12, H13, H14, H15, H16, H17, H18, HS⟩
      iframe
    · rw [Dat.leavesExact_idle (dat4 V c) 18 t (idleAt4_18 t (fun h => h2 ((hcond4_2 t).mp h))) (noFlush4_18 t (fun h => h2 ((hcond4_2 t).mp h)))]
      rw [Phi4_castSucc V c t, Phi4_pos V c _ _ h1, acc4_later V c t h1]
      unfold step4
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run4_B c (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (fun h => h1 ((hcond4_1 t).mp h)) (fun h => h2 ((hcond4_2 t).mp h)) _ _ Set.univ _)
      iframe H0 H1 H2 H3 H4 H5 H6 H7 H8 H9 H10 H11 H12 H13 H14 H15 H16 H17 H18 HS
      iintro ⟨H0, H1, H2, H3, H4, H5, H6, H7, H8, H9, H10, H11, H12, H13, H14, H15, H16, H17, H18, HS⟩
      iframe HS Hrest Hg Ho H0 H1 H2 H3 H4 H5 H6 H7 H8 H9 H10 H11 H12 H13 H14 H15 H16 H17
      iexists _; iexact H18

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨HS, Hrest, Hg⟩
  isplitl [HS Hrest]
  · isplitl [HS]
    · iexists _; iexact HS
    iexact Hrest
  iexact Hg

theorem hout4 (c : Dev nD) : (dat4 V c).Φ (Fin.last cfg4.N) ⊢ Pipeline.ΦA spec4 c :=
  Phi4_out V c _ (by rw [Fin.val_last]; have : cfg4.N = 25 := N_4; omega)

end Cert.Kernel.Hand

end
-- ==== Proof.Kernel.Segs.lean ====
import proofs.«410414_j13597866459249_2_alg».proof.Proof.Kernel.RegionsP
import proofs.«410414_j13597866459249_2_alg».proof.Proof.Kernel.Reg0
import proofs.«410414_j13597866459249_2_alg».proof.Proof.Kernel.Reg1
import proofs.«410414_j13597866459249_2_alg».proof.Proof.Kernel.Reg2
import proofs.«410414_j13597866459249_2_alg».proof.Proof.Kernel.Reg3
import proofs.«410414_j13597866459249_2_alg».proof.Proof.Kernel.Reg4
import proofs.«410414_j13597866459249_2_alg».proof.Proof.Gen.Kernel.Skeleton
import proofs.«410414_j13597866459249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

noncomputable def outsA : Outs (F := F) := fun _ r c =>
  Pipeline.withArrays spec0 c (V1 m c) (fun w => (dat0 (atTc (V1 m)) c).arrAt w cfg0.N) r

noncomputable def outsB : Outs (F := F) := fun J r c => match J with
  | 2 => outsA m 2 r c
  | _ => Pipeline.withArrays spec1 c (V3 m (outsA m) c) (fun w => (dat1 (atTc (V3 m (outsA m))) c).arrAt w cfg1.N) r

noncomputable def outsC : Outs (F := F) := fun J r c => match J with
  | 2 => outsA m 2 r c
  | 4 => outsB m 4 r c
  | _ => Pipeline.withArrays spec2 c (V5 m (outsB m) c) (fun w => (dat2 (atTc (V5 m (outsB m))) c).arrAt w cfg2.N) r

noncomputable def outsD : Outs (F := F) := fun J r c => match J with
  | 2 => outsA m 2 r c
  | 4 => outsB m 4 r c
  | 6 => outsC m 6 r c
  | _ => Pipeline.withArrays spec3 c (V7 m (outsC m) c) (fun w => (dat3 (atTc (V7 m (outsC m))) c).arrAt w cfg3.N) r

noncomputable def outs : Outs (F := F) := fun J r c => match J with
  | 2 => outsA m 2 r c
  | 4 => outsB m 4 r c
  | 6 => outsC m 6 r c
  | 8 => outsD m 8 r c
  | _ => Pipeline.withArrays spec4 c (V9 m (outsD m) c) (fun w => (dat4 (atTc (V9 m (outsD m))) c).arrAt w cfg4.N) r

abbrev adm : (p : Fin 5) → (pcfgs (F := F) p).Adm := fun p => (cfgs p).toPCfg_adm

noncomputable def pdats : (p : Fin 5) → (c : Dev nD) → Dat τ (Elt F) Unit ℕ (UR sig nD τ) ℕ (cfgs p) c
  | ⟨0, _⟩ => fun c => dat0 (atTc (V1 m)) c
  | ⟨1, _⟩ => fun c => dat1 (atTc (V3 m (outs m))) c
  | ⟨2, _⟩ => fun c => dat2 (atTc (V5 m (outs m))) c
  | ⟨3, _⟩ => fun c => dat3 (atTc (V7 m (outs m))) c
  | ⟨4, _⟩ => fun c => dat4 (atTc (V9 m (outs m))) c

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in
/-- A region's record from its launch facts, its body obligation and the contents of the buffers before and after it. -/
noncomputable def regOf (p : Fin 5) (L : Pipeline.LaunchFacts (nD := nD) (τ := τ) cfgs p) (Vi Vo : Dev nD → Valuation τ sig (Elt F)) (O : List (Ref sig .tc))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Vi c (Pipeline.arrRef (cfgs p).spec w))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hkeep : ∀ c r, r ∉ O → Vo c r = Vi c r)
    (hVo : O.Forall fun (r : Ref sig .tc) => ∀ c, Vo c r = Pipeline.withArrays (cfgs p).spec c (Vi c) (fun w => (pdats m p c).arrAt w (cfgs p).N) r)
    (hio : ∀ w, Pipeline.arrRef (cfgs p).spec w ∉ O → ((cfgs p).win w).isOut = false)
    (hO : ∀ r ∈ O, ∃ w, Pipeline.arrRef (cfgs p).spec w = r) :
    RegionSeg (pcfgs (F := F)) adm (pdats m) () defs₀ Variants.none Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) L.win L.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) p).pre c (fun _ => fullShare) (adm (F := F) p).1 ∗ Pipeline.scopedRest (Ix := Unit) (Name := ℕ) (U := UR sig nD τ) (Lvl := ℕ) (cfgs p).spec c)
        ⊢ (Pipeline.ΦA (cfgs p).spec c : sProp 𝕄) := by
      unfold Pipeline.ΦA
      iintro ⟨Hp, -, Hr⟩
      isplitl [Hr]; · iexact Hr
      iexact Hp
    exact h1.trans (hin c)
  hout c := by
    have h1 : (Pipeline.ΦA (cfgs p).spec c : sProp 𝕄)
        ⊢ iprop((∃ r, prngReg c r) ∗ Pipeline.ownSems0 (fun k : PEmpty => k.elim) c ∗ Pipeline.scopedRest (Ix := Unit) (Name := ℕ) (U := UR sig nD τ) (Lvl := ℕ) (cfgs p).spec c) := by
      rw [Pipeline.ownSems0_none]; unfold Pipeline.ΦA
      iintro ⟨Hr, Hp⟩
      isplitl [Hp]; · iexact Hp
      isplitr; · iempintro
      iexact Hr
    exact (hout c).trans h1
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atTc Vi c) (atTc Vo c) ((pdats m p c).arrAt · (cfgs p).N)
      (fun w => if h : Pipeline.arrRef (cfgs p).spec w ∈ O
        then ((List.forall_iff_forall_mem.mp hVo _ h c).trans (Pipeline.withArrays_arr _ L.win.arr_inj c _ _ w)).symm
        else ((pdats m p c).arrAt_in w (hio w h) _).trans ((hA c w).trans (hkeep c _ h).symm))
      (fun b hb => hkeep c b fun h => hb (by obtain ⟨w, rfl⟩ := hO b h; exact Finset.mem_image_of_mem _ (Finset.mem_univ w)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem upd_fst (V : Valuation τ sig (Elt F)) {a b : Ref sig .tc} (h : a ≠ b) (x y) :
    Function.update (Function.update V (Proc.devRef .tc a) x) (Proc.devRef .tc b) y (Proc.devRef .tc a) = x := by
  rw [Function.update_of_ne (StableHlo.devRef_ne_of_ne h), Function.update_self]

theorem V2_main_v4_0 (o : Outs (F := F)) (c : Dev nD) : V2 m o c main_v4_0 = o 2 main_v4_0 c :=
  upd_fst _ (by decide) _ _
theorem outs_main_v4_0 (c : Dev nD) : outs m 2 main_v4_0 c = (pdats m 0 c).arrAt 2 cfg0.N :=
  Pipeline.withArrays_arr spec0 launch0.win.arr_inj c (V1 m c) (fun w => (pdats m 0 c).arrAt w cfg0.N) 2
theorem V2_main_v4_1 (o : Outs (F := F)) (c : Dev nD) : V2 m o c main_v4_1 = o 2 main_v4_1 c :=
  Function.update_self ..
theorem outs_main_v4_1 (c : Dev nD) : outs m 2 main_v4_1 c = (pdats m 0 c).arrAt 3 cfg0.N :=
  Pipeline.withArrays_arr spec0 launch0.win.arr_inj c (V1 m c) (fun w => (pdats m 0 c).arrAt w cfg0.N) 3

set_option backward.isDefEq.respectTransparency.types false in
noncomputable def reg0 : RegionSeg (pcfgs (F := F)) adm (pdats m) () defs₀ Variants.none Lz lvz 0 :=
  regOf m 0 launch0 (V1 m) (V2 m (outs m)) [main_v4_0, main_v4_1] (fun c => body_obligation0 (atTc (V1 m)) c) (fun _ _ => rfl) (fun _ _ => rfl)
    (fun _ _ => rfl) (fun _ _ => rfl) (fun _ => .rfl) (fun _ => .rfl) (V2_of m (outs m)) ⟨V2_main_v4_0 m _, V2_main_v4_1 m _⟩ (by decide) (by decide)

theorem V4_main_v18_0 (o : Outs (F := F)) (c : Dev nD) : V4 m o c main_v18_0 = o 4 main_v18_0 c :=
  upd_fst _ (by decide) _ _
theorem outs_main_v18_0 (c : Dev nD) : outs m 4 main_v18_0 c = (pdats m 1 c).arrAt 5 cfg1.N :=
  Pipeline.withArrays_arr spec1 launch1.win.arr_inj c (V3 m (outs m) c) (fun w => (pdats m 1 c).arrAt w cfg1.N) 5
theorem V4_main_v18_1 (o : Outs (F := F)) (c : Dev nD) : V4 m o c main_v18_1 = o 4 main_v18_1 c :=
  Function.update_self ..
theorem outs_main_v18_1 (c : Dev nD) : outs m 4 main_v18_1 c = (pdats m 1 c).arrAt 6 cfg1.N :=
  Pipeline.withArrays_arr spec1 launch1.win.arr_inj c (V3 m (outs m) c) (fun w => (pdats m 1 c).arrAt w cfg1.N) 6

set_option backward.isDefEq.respectTransparency.types false in
noncomputable def reg1 : RegionSeg (pcfgs (F := F)) adm (pdats m) () defs₀ Variants.none Lz lvz 1 :=
  regOf m 1 launch1 (V3 m (outs m)) (V4 m (outs m)) [main_v18_0, main_v18_1] (fun c => body_obligation1 (atTc (V3 m (outs m))) c) (fun _ _ => rfl) (fun _ _ => rfl)
    (fun _ _ => rfl) (fun _ _ => rfl) (fun _ => .rfl) (fun _ => .rfl) (V4_of m (outs m)) ⟨V4_main_v18_0 m _, V4_main_v18_1 m _⟩ (by decide) (by decide)

theorem V6_main_v32_0 (o : Outs (F := F)) (c : Dev nD) : V6 m o c main_v32_0 = o 6 main_v32_0 c :=
  upd_fst _ (by decide) _ _
theorem outs_main_v32_0 (c : Dev nD) : outs m 6 main_v32_0 c = (pdats m 2 c).arrAt 6 cfg2.N :=
  Pipeline.withArrays_arr spec2 launch2.win.arr_inj c (V5 m (outs m) c) (fun w => (pdats m 2 c).arrAt w cfg2.N) 6
theorem V6_main_v32_1 (o : Outs (F := F)) (c : Dev nD) : V6 m o c main_v32_1 = o 6 main_v32_1 c :=
  Function.update_self ..
theorem outs_main_v32_1 (c : Dev nD) : outs m 6 main_v32_1 c = (pdats m 2 c).arrAt 7 cfg2.N :=
  Pipeline.withArrays_arr spec2 launch2.win.arr_inj c (V5 m (outs m) c) (fun w => (pdats m 2 c).arrAt w cfg2.N) 7

set_option backward.isDefEq.respectTransparency.types false in
noncomputable def reg2 : RegionSeg (pcfgs (F := F)) adm (pdats m) () defs₀ Variants.none Lz lvz 2 :=
  regOf m 2 launch2 (V5 m (outs m)) (V6 m (outs m)) [main_v32_0, main_v32_1] (fun c => body_obligation2 (atTc (V5 m (outs m))) c) (fun _ _ => rfl) (fun _ _ => rfl)
    (fun _ _ => rfl) (fun _ _ => rfl) (fun _ => .rfl) (fun _ => .rfl) (V6_of m (outs m)) ⟨V6_main_v32_0 m _, V6_main_v32_1 m _⟩ (by decide) (by decide)

theorem V8_main_v46_0 (o : Outs (F := F)) (c : Dev nD) : V8 m o c main_v46_0 = o 8 main_v46_0 c :=
  upd_fst _ (by decide) _ _
theorem outs_main_v46_0 (c : Dev nD) : outs m 8 main_v46_0 c = (pdats m 3 c).arrAt 6 cfg3.N :=
  Pipeline.withArrays_arr spec3 launch3.win.arr_inj c (V7 m (outs m) c) (fun w => (pdats m 3 c).arrAt w cfg3.N) 6
theorem V8_main_v46_1 (o : Outs (F := F)) (c : Dev nD) : V8 m o c main_v46_1 = o 8 main_v46_1 c :=
  Function.update_self ..
theorem outs_main_v46_1 (c : Dev nD) : outs m 8 main_v46_1 c = (pdats m 3 c).arrAt 7 cfg3.N :=
  Pipeline.withArrays_arr spec3 launch3.win.arr_inj c (V7 m (outs m) c) (fun w => (pdats m 3 c).arrAt w cfg3.N) 7

set_option backward.isDefEq.respectTransparency.types false in
noncomputable def reg3 : RegionSeg (pcfgs (F := F)) adm (pdats m) () defs₀ Variants.none Lz lvz 3 :=
  regOf m 3 launch3 (V7 m (outs m)) (V8 m (outs m)) [main_v46_0, main_v46_1] (fun c => body_obligation3 (atTc (V7 m (outs m))) c) (fun _ _ => rfl) (fun _ _ => rfl)
    (fun _ _ => rfl) (fun _ _ => rfl) (fun _ => .rfl) (fun _ => .rfl) (V8_of m (outs m)) ⟨V8_main_v46_0 m _, V8_main_v46_1 m _⟩ (by decide) (by decide)

theorem V10_main_v59 (o : Outs (F := F)) (c : Dev nD) : V10 m o c main_v59 = o 10 main_v59 c :=
  Function.update_self ..
theorem outs_main_v59 (c : Dev nD) : outs m 10 main_v59 c = (pdats m 4 c).arrAt 18 cfg4.N :=
  Pipeline.withArrays_arr spec4 launch4.win.arr_inj c (V9 m (outs m) c) (fun w => (pdats m 4 c).arrAt w cfg4.N) 18

set_option backward.isDefEq.respectTransparency.types false in
noncomputable def reg4 : RegionSeg (pcfgs (F := F)) adm (pdats m) () defs₀ Variants.none Lz lvz 4 :=
  regOf m 4 launch4 (V9 m (outs m)) (V10 m (outs m)) [main_v59] (fun c => body_obligation4 (atTc (V9 m (outs m))) c) (fun _ _ => rfl) (fun _ _ => rfl)
    (fun _ _ => rfl) (fun _ _ => rfl) (hin4 (atTc (V9 m (outs m)))) (hout4 (atTc (V9 m (outs m)))) (V10_of m (outs m)) (V10_main_v59 m _) (by decide) (by decide)

noncomputable def Eseg : Fin 6 → Dev nD → sProp 𝕄
  | ⟨5, _⟩ => fun c => iprop(∃ W, owes (c : Thread nD τ) (0 : CellTallies nD τ sig Unit) W)
  | _ => fun c => Rr c

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Eseg (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Eseg (F := F) 0) : sProp 𝕄) := bigSep_mono fun c _ => by
    show _ ⊢ Rr c
    iintro ⟨-, HO, -, Hp, -⟩
    isplitl [Hp]; · iexists _; iexact Hp
    iexists ∅; iexact HO
  iintro ⟨H, -⟩
  imodintro
  iapply hmono; iexact H

/-- After the last region nothing of the rest but what is owed, which is nothing, is kept. -/
theorem hpost4 (c : Dev nD) : iprop(StableHlo.held (c : Thread nD τ) (Pipeline.ucRefs τ sig) (V10 m (outs m) c) ∗ Rr c)
    ⊢ iprop(StableHlo.held (c : Thread nD τ) (Pipeline.ucRefs τ sig) (V10 m (outs m) c) ∗ ∃ W, owes (c : Thread nD τ) (0 : CellTallies nD τ sig Unit) W) := by
  iintro ⟨Hh, -, HO⟩
  isplitl [Hh]; · iexact Hh
  iexact HO

end Cert.Kernel.Hand

end
-- ==== Proof.Kernel.Frame.lean ====
import proofs.«410414_j13597866459249_2_alg».proof.Defs
import proofs.«410414_j13597866459249_2_alg».proof.Proof.Gen.Kernel
import proofs.«410414_j13597866459249_2_alg».proof.Proof.Gen.Pre_finite_inputs
import proofs.«410414_j13597866459249_2_alg».proof.Proof.Kernel.Segs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

set_option backward.isDefEq.respectTransparency.types false in
/-- The launch over the five regions' records: every execution of the word-level program ends, and its argument arrays end as launched. -/
theorem frame : Cert.frame_Kernel := fun m ρ _ =>
  frame_cond m emb₁ () Variants.none Lz lvz (fun _ _ => rfl) ρ (outs m) (pdats m) 0 (fun _ => iprop(emp))
    (initOf (Pipeline.cells cfgs cellOf_inj) (Pipeline.launchToks cfgs cellOf_inj)) hu0 Eseg (hE0 ρ) (fun c => .rfl)
    (reg0 m) (fun c => .rfl) (fun c => .rfl) (reg1 m) (fun c => .rfl) (fun c => .rfl) (reg2 m) (fun c => .rfl) (fun c => .rfl)
    (reg3 m) (fun c => .rfl) (fun c => .rfl) (reg4 m) (fun c => .rfl) (hpost4 m)

end Cert.Kernel.Hand

end
-- ==== Proof.KernelIdeal.Reg0.lean ====
import proofs.«410414_j13597866459249_2_alg».proof.Proof.KernelIdeal.LaunchP
import proofs.«410414_j13597866459249_2_alg».proof.Proof.Gen.KernelIdeal.Skeleton
import proofs.«410414_j13597866459249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x100 := Rect.unit (s := S2000x100) ![0, 0] S2000x100.size inb_S2000x100_S2000x100_0_0
abbrev r0_1 : Rect S100x64 := Rect.unit (s := S100x64) ![0, 0] S100x64.size inb_S100x64_S100x64_0_0
abbrev r0_2 : Rect S2000x64 := Rect.unit (s := S2000x64) ![0, 0] S2000x64.size inb_S2000x64_S2000x64_0_0

noncomputable def out0_2 (x0 : Vec F S2000x100 .f32) (x1 : Vec F S100x64 .f32) : Vec F S2000x64 .f32 :=
  View.canon [⟨r0_2, k0_pay1 (View.ld x0 r0_0) (View.ld x1 r0_1)⟩]

noncomputable def out0_3 (x0 : Vec F S2000x100 .f32) (x1 : Vec F S100x64 .f32) : Vec F S2000x64 .bf16 :=
  View.canon [⟨r0_2, k0_pay2 (View.ld x0 r0_0) (View.ld x1 r0_1)⟩]

theorem cover0_2 (p0 : Vec F S2000x64 .f32) (y : S2000x64.Idx) :
    ∃ pc ∈ ([⟨r0_2, p0⟩] : List (View.Piece (Elt F) S2000x64 .f32)), y ∈ pc.1.set :=
  View.cover_of_tiled [⟨r0_2, p0⟩] S2000x64.size (by rfl) y

theorem cover0_3 (p0 : Vec F S2000x64 .bf16) (y : S2000x64.Idx) :
    ∃ pc ∈ ([⟨r0_2, p0⟩] : List (View.Piece (Elt F) S2000x64 .bf16)), y ∈ pc.1.set :=
  View.cover_of_tiled [⟨r0_2, p0⟩] S2000x64.size (by rfl) y

set_option maxHeartbeats 4000000 in

theorem sound_kernel0 (c : Dev nD) (E : Set ℕ) (i : grid0.Coords) (arg1 : Memref sig .tc .vmem S2000x100 .f32) (harg1 : arg1.IsWhole) (arg2 : Memref sig .tc .vmem S100x64 .f32) (harg2 : arg2.IsWhole) (arg3 : Memref sig .tc .vmem S2000x64 .f32) (harg3 : arg3.IsWhole) (arg4 : Memref sig .tc .vmem S2000x64 .bf16) (harg4 : arg4.IsWhole)
    (x0 : Vec F S2000x100 .f32) (x1 : Vec F S100x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  iframe H0 H1
  isplitl [H2]; · iexists _; iexact H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem Φ_eq0 (c : Dev nD) (t : Fin (cfg0.N + 1)) : (dat0 V c).Φ t = Pipeline.ΦA spec0 c := rfl

end Region0
end Cert.KernelIdeal.Hand

end
-- ==== Proof.KernelIdeal.Reg1.lean ====
import proofs.«410414_j13597866459249_2_alg».proof.Proof.KernelIdeal.LaunchP
import proofs.«410414_j13597866459249_2_alg».proof.Proof.Gen.KernelIdeal.Skeleton
import proofs.«410414_j13597866459249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

section Frame

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1A : Rect S2000x64 := Rect.unit (s := S2000x64) ![0, 0] S2000x64.size inb_S2000x64_S2000x64_0_0
abbrev r1B : Rect S1x64 := Rect.unit (s := S1x64) ![0, 0] S1x64.size inb_S1x64_S1x64_0_0
abbrev r1C : Rect S64x64 := Rect.unit (s := S64x64) ![0, 0] S64x64.size inb_S64x64_S64x64_0_0

def out1_5 (x0 x1 : Vec F S2000x64 .f32) (x2 : Vec F S1x64 .f32) (x3 : Vec F S64x64 .f32) (x4 : Vec F S1x64 .f32) : Vec F S2000x64 .f32 :=
  View.canon [⟨r1A, k1_pay1 (View.ld x0 r1A) (View.ld x1 r1A) (View.ld x2 r1B) (View.ld x3 r1C) (View.ld x4 r1B)⟩]

def out1_6 (x0 x1 : Vec F S2000x64 .f32) (x2 : Vec F S1x64 .f32) (x3 : Vec F S64x64 .f32) (x4 : Vec F S1x64 .f32) : Vec F S2000x64 .bf16 :=
  View.canon [⟨r1A, k1_pay2 (View.ld x0 r1A) (View.ld x1 r1A) (View.ld x2 r1B) (View.ld x3 r1C) (View.ld x4 r1B)⟩]

theorem cover1 {e : EltTy} (p0 : Vec F S2000x64 e) (y : S2000x64.Idx) :
    ∃ pc ∈ ([⟨r1A, p0⟩] : List (View.Piece (Elt F) S2000x64 e)), y ∈ pc.1.set :=
  View.cover_of_tiled [⟨r1A, p0⟩] S2000x64.size (by rfl) y

set_option maxHeartbeats 4000000 in

theorem sound_kernel1 (c : Dev nD) (E : Set ℕ) (i : grid1.Coords)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2000x64 .f32) (harg6 : arg6.IsWhole)
    (arg7 : Memref sig .tc .vmem S2000x64 .bf16) (harg7 : arg7.IsWhole)
    (x0 x1 : Vec F S2000x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__gin_layer0_kernel i arg1 harg1 arg2 harg2 arg3 harg3 arg4 harg4 arg5 harg5 arg6 harg6 arg7 harg7) K := by
  simp only [cc1__gin_layer0_kernel_eq_skeleton]; unfold cc1__gin_layer0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  iexists _; isplitr
  swap; · iexact H6
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t)
      ∧ (∀ d, (dat1 V c).before 1 t d = iblk1 V c 1 t)
      ∧ (∀ d, (dat1 V c).before 2 t d = iblk1 V c 2 t)
      ∧ (∀ d, (dat1 V c).before 3 t d = iblk1 V c 3 t)
      ∧ (∀ d, (dat1 V c).before 4 t d = iblk1 V c 4 t) := by
  refine ⟨fun d => ?_, fun d => ?_, fun d => ?_, fun d => ?_, fun d => ?_⟩ <;>
  exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have b := before1 V c t
  simp only [b.1, b.2.1, b.2.2.1, b.2.2.2.1, b.2.2.2.2]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Frame
end Cert.KernelIdeal.Hand

end
-- ==== Proof.KernelIdeal.Reg2.lean ====
import proofs.«410414_j13597866459249_2_alg».proof.Proof.KernelIdeal.LaunchP
import proofs.«410414_j13597866459249_2_alg».proof.Proof.Gen.KernelIdeal.Skeleton
import proofs.«410414_j13597866459249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_a : Rect S2000x64 := Rect.unit (s := S2000x64) ![0, 0] S2000x64.size inb_S2000x64_S2000x64_0_0
abbrev rect2_w : Rect S64x64 := Rect.unit (s := S64x64) ![0, 0] S64x64.size inb_S64x64_S64x64_0_0
abbrev rect2_b : Rect S1x64 := Rect.unit (s := S1x64) ![0, 0] S1x64.size inb_S1x64_S1x64_0_0

def out2_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨rect2_a, k2_pay1 (View.ld x0 rect2_a) (View.ld x1 rect2_a) (View.ld x2 rect2_w) (View.ld x3 rect2_b) (View.ld x4 rect2_w) (View.ld x5 rect2_b)⟩]

def out2_7 (x0 : Vec F S2000x64 .f32) (x1 : Vec F S2000x64 .f32) (x2 : Vec F S64x64 .f32) (x3 : Vec F S1x64 .f32) (x4 : Vec F S64x64 .f32) (x5 : Vec F S1x64 .f32) : Vec F S2000x64 .bf16 :=
  View.canon [⟨rect2_a, k2_pay2 (View.ld x0 rect2_a) (View.ld x1 rect2_a) (View.ld x2 rect2_w) (View.ld x3 rect2_b) (View.ld x4 rect2_w) (View.ld x5 rect2_b)⟩]

theorem cover2 {e : EltTy} (p0 : Vec F S2000x64 e) (y : S2000x64.Idx) :
    ∃ pc ∈ ([⟨rect2_a, p0⟩] : List (View.Piece (Elt F) S2000x64 e)), y ∈ pc.1.set :=
  View.cover_of_tiled [⟨rect2_a, p0⟩] S2000x64.size (by rfl) y

set_option maxHeartbeats 4000000 in

theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S2000x64 .f32) (harg7 : arg7.IsWhole) (arg8 : Memref sig .tc .vmem S2000x64 .bf16) (harg8 : arg8.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t)
      ∧ (∀ d, (dat2 V c).before 1 t d = iblk2 V c 1 t)
      ∧ (∀ d, (dat2 V c).before 2 t d = iblk2 V c 2 t)
      ∧ (∀ d, (dat2 V c).before 3 t d = iblk2 V c 3 t)
      ∧ (∀ d, (dat2 V c).before 4 t d = iblk2 V c 4 t)
      ∧ (∀ d, (dat2 V c).before 5 t d = iblk2 V c 5 t) := by
  refine ⟨fun d => ?_, fun d => ?_, fun d => ?_, fun d => ?_, fun d => ?_, fun d => ?_⟩ <;>
  exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have b := before2 V c t
  simp only [b.1, b.2.1, b.2.2.1, b.2.2.2.1, b.2.2.2.2.1, b.2.2.2.2.2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  isplitl [H7]; · iexists _; iexact H7
  iintro ⟨H0, H1, H2, H3, H4, H5, H6, H7⟩
  iframe

theorem body_obligation2 (c : Dev nD) : BodyObligation (dat2 (F := F) V c) (defs₀ (F := F)) Variants.none () Set.univ := fun t => by
  rw [bigSep_W2, bigSep_W2]
  exact sound_body2 V c t

end Frame

end Cert.KernelIdeal.Hand

end
-- ==== Proof.KernelIdeal.Reg3.lean ====
import proofs.«410414_j13597866459249_2_alg».proof.Proof.KernelIdeal.LaunchP
import proofs.«410414_j13597866459249_2_alg».proof.Proof.Gen.KernelIdeal.Skeleton
import proofs.«410414_j13597866459249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rect3_a : Rect S2000x64 := Rect.unit (s := S2000x64) ![0, 0] S2000x64.size inb_S2000x64_S2000x64_0_0
abbrev rect3_w : Rect S64x64 := Rect.unit (s := S64x64) ![0, 0] S64x64.size inb_S64x64_S64x64_0_0
abbrev rect3_b : Rect S1x64 := Rect.unit (s := S1x64) ![0, 0] S1x64.size inb_S1x64_S1x64_0_0

def out3_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨rect3_a, k3_pay1 (View.ld x0 rect3_a) (View.ld x1 rect3_a) (View.ld x2 rect3_w) (View.ld x3 rect3_b) (View.ld x4 rect3_w) (View.ld x5 rect3_b)⟩]

def out3_7 (x0 : Vec F S2000x64 .f32) (x1 : Vec F S2000x64 .f32) (x2 : Vec F S64x64 .f32) (x3 : Vec F S1x64 .f32) (x4 : Vec F S64x64 .f32) (x5 : Vec F S1x64 .f32) : Vec F S2000x64 .bf16 :=
  View.canon [⟨rect3_a, k3_pay2 (View.ld x0 rect3_a) (View.ld x1 rect3_a) (View.ld x2 rect3_w) (View.ld x3 rect3_b) (View.ld x4 rect3_w) (View.ld x5 rect3_b)⟩]

theorem cover3 {e : EltTy} (p0 : Vec F S2000x64 e) (y : S2000x64.Idx) :
    ∃ pc ∈ ([⟨rect3_a, p0⟩] : List (View.Piece (Elt F) S2000x64 e)), y ∈ pc.1.set :=
  View.cover_of_tiled [⟨rect3_a, p0⟩] S2000x64.size (by rfl) y

set_option maxHeartbeats 4000000 in

theorem sound_kernel3 (c : Dev nD) (E : Set ℕ) (i : grid3.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S2000x64 .f32) (harg7 : arg7.IsWhole) (arg8 : Memref sig .tc .vmem S2000x64 .bf16) (harg8 : arg8.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__gin_layer_kernel i arg1 harg1 arg2 harg2 arg3 harg3 arg4 harg4 arg5 harg5 arg6 harg6 arg7 harg7 arg8 harg8) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3 _)
  iexists _; isplitr
  swap; · iexact H7
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t)
      ∧ (∀ d, (dat3 V c).before 1 t d = iblk3 V c 1 t)
      ∧ (∀ d, (dat3 V c).before 2 t d = iblk3 V c 2 t)
      ∧ (∀ d, (dat3 V c).before 3 t d = iblk3 V c 3 t)
      ∧ (∀ d, (dat3 V c).before 4 t d = iblk3 V c 4 t)
      ∧ (∀ d, (dat3 V c).before 5 t d = iblk3 V c 5 t) := by
  refine ⟨fun d => ?_, fun d => ?_, fun d => ?_, fun d => ?_, fun d => ?_, fun d => ?_⟩ <;>
  exact ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  have b := before3 V c t
  simp only [b.1, b.2.1, b.2.2.1, b.2.2.2.1, b.2.2.2.2.1, b.2.2.2.2.2]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  isplitl [H7]; · iexists _; iexact H7
  iintro ⟨H0, H1, H2, H3, H4, H5, H6, H7⟩
  iframe

theorem body_obligation3 (c : Dev nD) : BodyObligation (dat3 (F := F) V c) (defs₀ (F := F)) Variants.none () Set.univ := fun t => by
  rw [bigSep_W3, bigSep_W3]
  exact sound_body3 V c t

end Frame

end Cert.KernelIdeal.Hand

end
-- ==== Proof.KernelIdeal.Reg4.lean ====
import proofs.«410414_j13597866459249_2_alg».proof.Proof.KernelIdeal.LaunchP
import proofs.«410414_j13597866459249_2_alg».proof.Proof.Gen.KernelIdeal.Skeleton
import proofs.«410414_j13597866459249_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.WholeRead
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def step4 (c : Dev nD) (t : Fin cfg4.N) (x : Vec F S512x64 .f32) : Vec F S512x64 .f32 :=
  k4_pay1 (k4_pay5 (iblk4 V c 0 t) (iblk4 V c 4 t) (iblk4 V c 1 t) (iblk4 V c 5 t) (iblk4 V c 2 t) (iblk4 V c 6 t) (iblk4 V c 7 t))
    (k4_pay6 (iblk4 V c 3 t)) x

noncomputable def acc4 (c : Dev nD) : (n : ℕ) → n < cfg4.N → Vec F S512x64 .f32
  | 0, hn => step4 V c ⟨0, hn⟩ (k4_pay4 (F := F))
  | n + 1, hn => step4 V c ⟨n + 1, hn⟩ (acc4 c n (Nat.lt_of_succ_lt hn))

theorem acc4_zero (c : Dev nD) (hn : 0 < cfg4.N) : acc4 V c 0 hn = step4 V c ⟨0, hn⟩ (k4_pay4 (F := F)) := rfl

theorem acc4_succ (c : Dev nD) (n : ℕ) (hn : n + 1 < cfg4.N) :
    acc4 V c (n + 1) hn = step4 V c ⟨n + 1, hn⟩ (acc4 V c n (Nat.lt_of_succ_lt hn)) := rfl

noncomputable def out4 (c : Dev nD) (t : Fin cfg4.N) : Vec F S512x24 .f32 :=
  k4_pay2 (k4_pay3 (acc4 V c t.val t.isLt) (iblk4 V c 8 t) (iblk4 V c 9 t) (iblk4 V c 12 t) (iblk4 V c 13 t) (iblk4 V c 10 t) (iblk4 V c 11 t)
      (iblk4 V c 14 t) (iblk4 V c 15 t)) (iblk4 V c 16 t) (iblk4 V c 17 t)

abbrev cond4_1 (i : grid4.Coords) : Prop := (Scalar.cmpi .ne (Scalar.extui (Scalar.cmpi .eq (BitVec.ofNat 32 (i 0).val) 0#32)) 0#32) = 1#1

theorem hcond4_1 : ∀ t : Fin cfg4.N, cond4_1 (grid4.coords t) ↔ t.val = 0 :=
  (by decide +kernel : ∀ t : Fin grid4.N, cond4_1 (grid4.coords t) ↔ t.val = 0)

abbrev cond4_2 (i : grid4.Coords) : Prop := k4_cond2 i = 1#1

theorem hcond4_2 : ∀ t : Fin cfg4.N, cond4_2 (grid4.coords t) ↔ t.val = 24 :=
  (by decide +kernel : ∀ t : Fin grid4.N, cond4_2 (grid4.coords t) ↔ t.val = 24)

theorem read_writes_whole {κ : Kind} {sp : Space} {S : Shape} {e : EltTy} (v : View sig κ sp S e) (f : v.ty.Contents (Elt F))
    (off : Fin S.rank → ℕ) (hoff : ∀ a, off a = 0) (inb : ∀ a, off a + S.size a ≤ S.size a)
    (w : S.Idx → Elt F e) (L : List (View.Piece (Elt F) S e)) :
    v.read (Elt F) (v.writes (Elt F) f (⟨Rect.unit (s := S) off S.size inb, w⟩ :: L)) = w := by
  funext y
  have hy : (Rect.unit (s := S) off S.size inb).emb y = y :=
    funext fun a => Fin.ext (by rw [Rect.emb_apply]; show off a + 1 * (y a).val = (y a).val; rw [hoff a]; omega)
  have h := View.read_writes_cons_emb v f (Rect.unit (s := S) off S.size inb) w L y
  rw [hy] at h; exact h

theorem readAt_whole {κ : Kind} {sp : Space} {S : Shape} {e : EltTy} {m : Memref sig κ sp S e} (h : m.IsWhole) (X : S.Idx → Elt F e)
    (off : Fin S.rank → ℕ) (hoff : ∀ a, off a = 0) (inb : ∀ a, off a + S.size a ≤ S.size a) :
    View.readAt (Elt F) m.view (Rect.unit (s := S) off S.size inb).toLoadRect (h.unread X) = X := by
  funext x
  rw [h.readAt_unread]
  congr 1
  exact funext fun a => Fin.ext (by show off a + 1 * (x a).val = (x a).val; rw [hoff a]; omega)

theorem off00 : ∀ a : Fin 2, (![0, 0] : Fin 2 → ℕ) a = 0 := by decide

/-- A whole buffer left as it was found is still owned, at the contents it was found at. -/
theorem keep_whole (c : Dev nD) {S : Shape} {e : EltTy} {a : Memref sig .tc .vmem S e} (h : a.IsWhole) (x : S.Idx → Elt F e) :
    (a.view.loc (c : Thread nD τ) ↦[a.view.set]{fullShare} h.unread x : sProp 𝕄)
      ⊢ iprop(∃ f, ⌜a.view.read (Elt F) f = x⌝ ∗ (a.view.loc (c : Thread nD τ) ↦[a.view.set]{fullShare} f)) := by
  iintro H; iexists _; isplitr; · ipureintro; exact h.read_unread _
  iexact H

section Runs

variable (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x24 .f32) (harg17 : arg17.IsWhole) (arg18 : Memref sig .tc .vmem S1x24 .f32) (harg18 : arg18.IsWhole) (arg19 : Memref sig .tc .vmem S512x24 .f32) (harg19 : arg19.IsWhole) (arg20 : Memref sig .tc .vmem S512x64 .f32) (harg20 : arg20.IsWhole)
  (x0 : Vec F S2000x64 .f32) (x1 : Vec F S2000x64 .f32) (x2 : Vec F S2000x64 .f32) (x3 : Vec F S2000x1 .i32) (x4 : Vec F S64x64 .f32) (x5 : Vec F S64x64 .f32) (x6 : Vec F S64x64 .f32) (x7 : Vec F S1x64 .f32) (x8 : Vec F S64x64 .f32) (x9 : Vec F S1x64 .f32) (x10 : Vec F S1x64 .f32) (x11 : Vec F S1x64 .f32) (x12 : Vec F S1x64 .f32) (x13 : Vec F S1x64 .f32) (x14 : Vec F S64x64 .f32) (x15 : Vec F S1x64 .f32) (x16 : Vec F S64x24 .f32) (x17 : Vec F S1x24 .f32)

/-- The body's triple over whole buffers: the eighteen inputs are kept at their contents, the output's and the accumulator's buffers go
    from `P19`, `P20` to `Q19`, `Q20`. -/
def RunSpec (P19 P20 Q19 Q20 : sProp 𝕄) : Prop := ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ P19 ∗ P20
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ Q19 ∗ Q20) -∗ K ⟨⟩))
      ⊢ wp frame (wpE (defs₀ (F := F)) Variants.none c none) E (cc4__jk_pool_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K

set_option maxHeartbeats 4000000 in
theorem run4_B (hc1 : ¬cond4_1 i) (hc2 : ¬cond4_2 i) (xo : Vec F S512x24 .f32) (xs : Vec F S512x64 .f32) :
    RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      (owns (c : Thread nD τ) arg19 fullShare xo) (owns (c : Thread nD τ) arg20 fullShare xs)
      (owns (c : Thread nD τ) arg19 fullShare xo)
      (owns (c : Thread nD τ) arg20 fullShare (k4_pay1 (k4_pay5 x0 x4 x1 x5 x2 x6 x7) (k4_pay6 x3) xs)) := by
  intro E K
  simp only [cc4__jk_pool_head_kernel_eq_skeleton]; unfold cc4__jk_pool_head_kernel_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fo, %hfo, Ho⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg19.eq_unread hfo; obtain rfl := harg20.eq_unread hfs
  sl_exec (disch := first | exact hc1 | exact hc2)
  sl_step
  iapply Hk
  isplitl [H0]; · iapply keep_whole c harg1; iexact H0
  isplitl [H1]; · iapply keep_whole c harg2; iexact H1
  isplitl [H2]; · iapply keep_whole c harg3; iexact H2
  isplitl [H3]; · iapply keep_whole c harg4; iexact H3
  isplitl [H4]; · iapply keep_whole c harg5; iexact H4
  isplitl [H5]; · iapply keep_whole c harg6; iexact H5
  isplitl [H6]; · iapply keep_whole c harg7; iexact H6
  isplitl [H7]; · iapply keep_whole c harg8; iexact H7
  isplitl [H8]; · iapply keep_whole c harg9; iexact H8
  isplitl [H9]; · iapply keep_whole c harg10; iexact H9
  isplitl [H10]; · iapply keep_whole c harg11; iexact H10
  isplitl [H11]; · iapply keep_whole c harg12; iexact H11
  isplitl [H12]; · iapply keep_whole c harg13; iexact H12
  isplitl [H13]; · iapply keep_whole c harg14; iexact H13
  isplitl [H14]; · iapply keep_whole c harg15; iexact H14
  isplitl [H15]; · iapply keep_whole c harg16; iexact H15
  isplitl [H16]; · iapply keep_whole c harg17; iexact H16
  isplitl [H17]; · iapply keep_whole c harg18; iexact H17
  isplitl [Ho]; · iapply keep_whole c harg19; iexact Ho
  iexists _; isplitr
  swap; · iexact HS
  ipureintro
  sl_unfold_run_names
  simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

set_option maxHeartbeats 4000000 in
theorem run4_A (hc1 : cond4_1 i) (hc2 : ¬cond4_2 i) (xo : Vec F S512x24 .f32) :
    RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      (owns (c : Thread nD τ) arg19 fullShare xo) iprop(∃ d, owns (c : Thread nD τ) arg20 fullShare d)
      (owns (c : Thread nD τ) arg19 fullShare xo)
      (owns (c : Thread nD τ) arg20 fullShare (k4_pay1 (k4_pay5 x0 x4 x1 x5 x2 x6 x7) (k4_pay6 x3) (k4_pay4 (F := F)))) := by
  intro E K
  simp only [cc4__jk_pool_head_kernel_eq_skeleton]; unfold cc4__jk_pool_head_kernel_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fo, %hfo, Ho⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg19.eq_unread hfo
  sl_exec (disch := first | exact hc1 | exact hc2)
  sl_step
  iapply Hk
  isplitl [H0]; · iapply keep_whole c harg1; iexact H0
  isplitl [H1]; · iapply keep_whole c harg2; iexact H1
  isplitl [H2]; · iapply keep_whole c harg3; iexact H2
  isplitl [H3]; · iapply keep_whole c harg4; iexact H3
  isplitl [H4]; · iapply keep_whole c harg5; iexact H4
  isplitl [H5]; · iapply keep_whole c harg6; iexact H5
  isplitl [H6]; · iapply keep_whole c harg7; iexact H6
  isplitl [H7]; · iapply keep_whole c harg8; iexact H7
  isplitl [H8]; · iapply keep_whole c harg9; iexact H8
  isplitl [H9]; · iapply keep_whole c harg10; iexact H9
  isplitl [H10]; · iapply keep_whole c harg11; iexact H10
  isplitl [H11]; · iapply keep_whole c harg12; iexact H11
  isplitl [H12]; · iapply keep_whole c harg13; iexact H12
  isplitl [H13]; · iapply keep_whole c harg14; iexact H13
  isplitl [H14]; · iapply keep_whole c harg15; iexact H14
  isplitl [H15]; · iapply keep_whole c harg16; iexact H15
  isplitl [H16]; · iapply keep_whole c harg17; iexact H16
  isplitl [H17]; · iapply keep_whole c harg18; iexact H17
  isplitl [Ho]; · iapply keep_whole c harg19; iexact Ho
  iexists _; isplitr
  swap; · iexact HS
  ipureintro
  sl_unfold_run_names
  simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

set_option maxHeartbeats 4000000 in
theorem run4_C (hc1 : ¬cond4_1 i) (hc2 : cond4_2 i) (xs : Vec F S512x64 .f32) :
    RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      iprop(∃ d, owns (c : Thread nD τ) arg19 fullShare d) (owns (c : Thread nD τ) arg20 fullShare xs)
      (owns (c : Thread nD τ) arg19 fullShare (k4_pay2 (k4_pay3 (k4_pay1 (k4_pay5 x0 x4 x1 x5 x2 x6 x7) (k4_pay6 x3) xs) x8 x9 x12 x13 x10 x11 x14 x15) x16 x17))
      (owns (c : Thread nD τ) arg20 fullShare (k4_pay1 (k4_pay5 x0 x4 x1 x5 x2 x6 x7) (k4_pay6 x3) xs)) := by
  intro E K
  simp only [cc4__jk_pool_head_kernel_eq_skeleton]; unfold cc4__jk_pool_head_kernel_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d_o, %fo, -, Ho⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg20.eq_unread hfs
  sl_exec (disch := first | exact hc1 | exact hc2)
  sl_step
  iapply Hk
  isplitl [H0]; · iapply keep_whole c harg1; iexact H0
  isplitl [H1]; · iapply keep_whole c harg2; iexact H1
  isplitl [H2]; · iapply keep_whole c harg3; iexact H2
  isplitl [H3]; · iapply keep_whole c harg4; iexact H3
  isplitl [H4]; · iapply keep_whole c harg5; iexact H4
  isplitl [H5]; · iapply keep_whole c harg6; iexact H5
  isplitl [H6]; · iapply keep_whole c harg7; iexact H6
  isplitl [H7]; · iapply keep_whole c harg8; iexact H7
  isplitl [H8]; · iapply keep_whole c harg9; iexact H8
  isplitl [H9]; · iapply keep_whole c harg10; iexact H9
  isplitl [H10]; · iapply keep_whole c harg11; iexact H10
  isplitl [H11]; · iapply keep_whole c harg12; iexact H11
  isplitl [H12]; · iapply keep_whole c harg13; iexact H12
  isplitl [H13]; · iapply keep_whole c harg14; iexact H13
  isplitl [H14]; · iapply keep_whole c harg15; iexact H14
  isplitl [H15]; · iapply keep_whole c harg16; iexact H15
  isplitl [H16]; · iapply keep_whole c harg17; iexact H16
  isplitl [H17]; · iapply keep_whole c harg18; iexact H17
  isplitl [Ho]
  · iexists _; isplitr
    swap; · iexact Ho
    ipureintro
    sl_unfold_run_names
    simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

  iexists _; isplitr
  swap; · iexact HS
  ipureintro
  sl_unfold_run_names
  simp only [read_writes_whole (S := S512x64) _ _ _ off00, read_writes_whole (S := S512x24) _ _ _ off00, readAt_whole (S := S2000x64) _ _ _ off00, readAt_whole (S := S2000x1) _ _ _ off00, readAt_whole (S := S64x64) _ _ _ off00, readAt_whole (S := S1x64) _ _ _ off00, readAt_whole (S := S64x24) _ _ _ off00, readAt_whole (S := S1x24) _ _ _ off00, readAt_whole (S := S512x24) _ _ _ off00, readAt_whole (S := S512x64) _ _ _ off00, View.readCov_cons_toLoadRect]

end Runs

abbrev scM4 : Memref sig .tc .vmem S512x64 .f32 := Memref.whole cc4_scratch0

noncomputable def Phi4 (c : Dev nD) : (n : ℕ) → n ≤ cfg4.N → sProp 𝕄
  | 0, _ => Pipeline.ΦA spec4 c
  | n + 1, hn => iprop(owns (c : Thread nD τ) scM4 fullShare (acc4 V c n hn) ∗ Pipeline.scopedRestBut (Ix := Unit) (Name := ℕ) (U := UR sig nD τ) (Lvl := ℕ) (Val := Elt F) spec4 c [cc4_scratch0] ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) scM4 fullShare (acc4 V c n hn) ∗ Pipeline.scopedRestBut (Ix := Unit) (Name := ℕ) (U := UR sig nD τ) (Lvl := ℕ) (Val := Elt F) spec4 c [cc4_scratch0] ∗ (∃ r, prngReg c r)) := rfl

theorem Phi4_pos (c : Dev nD) (n : ℕ) (h : n ≤ cfg4.N) (hz : n ≠ 0) :
    Phi4 V c n h = iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl

theorem PhiA4_eq (c : Dev nD) :
    (Pipeline.ΦA spec4 c : sProp 𝕄)
      = iprop(iprop(iprop(∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

theorem acc4_first (c : Dev nD) (t : Fin cfg4.N) (h : t.val = 0) :
    acc4 V c t.val t.isLt = step4 V c t (k4_pay4 (F := F)) := by
  obtain ⟨n, hn⟩ := t
  cases n with
  | zero => rfl
  | succ n => exact absurd h (Nat.succ_ne_zero n)

theorem acc4_later (c : Dev nD) (t : Fin cfg4.N) (h : t.val ≠ 0) :
    acc4 V c t.val t.isLt = step4 V c t (acc4 V c (t.val - 1) (Nat.lt_of_le_of_lt (Nat.sub_le _ _) t.isLt)) := by
  obtain ⟨n, hn⟩ := t
  cases n with
  | zero => exact absurd rfl h
  | succ n => rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => out4 V c t
    | ⟨_ + 19, h⟩ => absurd h (Nat.not_lt.2 (Nat.le_add_left _ _))
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = iblk4 V c 3 t := rfl
theorem after4_4 (c : Dev nD) (t : Fin cfg4.N) : (dat4 V c).after 4 t = iblk4 V c 4 t := rfl
theorem after4_5 (c : Dev nD) (t : Fin cfg4.N) : (dat4 V c).after 5 t = iblk4 V c 5 t := rfl
theorem after4_6 (c : Dev nD) (t : Fin cfg4.N) : (dat4 V c).after 6 t = iblk4 V c 6 t := rfl
theorem after4_7 (c : Dev nD) (t : Fin cfg4.N) : (dat4 V c).after 7 t = iblk4 V c 7 t := rfl
theorem after4_8 (c : Dev nD) (t : Fin cfg4.N) : (dat4 V c).after 8 t = iblk4 V c 8 t := rfl
theorem after4_9 (c : Dev nD) (t : Fin cfg4.N) : (dat4 V c).after 9 t = iblk4 V c 9 t := rfl
theorem after4_10 (c : Dev nD) (t : Fin cfg4.N) : (dat4 V c).after 10 t = iblk4 V c 10 t := rfl
theorem after4_11 (c : Dev nD) (t : Fin cfg4.N) : (dat4 V c).after 11 t = iblk4 V c 11 t := rfl
theorem after4_12 (c : Dev nD) (t : Fin cfg4.N) : (dat4 V c).after 12 t = iblk4 V c 12 t := rfl
theorem after4_13 (c : Dev nD) (t : Fin cfg4.N) : (dat4 V c).after 13 t = iblk4 V c 13 t := rfl
theorem after4_14 (c : Dev nD) (t : Fin cfg4.N) : (dat4 V c).after 14 t = iblk4 V c 14 t := rfl
theorem after4_15 (c : Dev nD) (t : Fin cfg4.N) : (dat4 V c).after 15 t = iblk4 V c 15 t := rfl
theorem after4_16 (c : Dev nD) (t : Fin cfg4.N) : (dat4 V c).after 16 t = iblk4 V c 16 t := rfl
theorem after4_17 (c : Dev nD) (t : Fin cfg4.N) : (dat4 V c).after 17 t = iblk4 V c 17 t := rfl
theorem after4_18 (c : Dev nD) (t : Fin cfg4.N) : (dat4 V c).after 18 t = out4 V c t := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d
theorem before4_6 (c : Dev nD) (t : Fin cfg4.N) (d) : (dat4 V c).before 6 t d = iblk4 V c 6 t :=
  (dat4 V c).before_in_eq_fetched 6 rfl (fun _ => rfl) (fun _ _ _ => rfl) (fun _ => rfl) t d
theorem before4_7 (c : Dev nD) (t : Fin cfg4.N) (d) : (dat4 V c).before 7 t d = iblk4 V c 7 t :=
  (dat4 V c).before_in_eq_fetched 7 rfl (fun _ => rfl) (fun _ _ _ => rfl) (fun _ => rfl) t d
theorem before4_8 (c : Dev nD) (t : Fin cfg4.N) (d) : (dat4 V c).before 8 t d = iblk4 V c 8 t :=
  (dat4 V c).before_in_eq_fetched 8 rfl (fun _ => rfl) (fun _ _ _ => rfl) (fun _ => rfl) t d
theorem before4_9 (c : Dev nD) (t : Fin cfg4.N) (d) : (dat4 V c).before 9 t d = iblk4 V c 9 t :=
  (dat4 V c).before_in_eq_fetched 9 rfl (fun _ => rfl) (fun _ _ _ => rfl) (fun _ => rfl) t d
theorem before4_10 (c : Dev nD) (t : Fin cfg4.N) (d) : (dat4 V c).before 10 t d = iblk4 V c 10 t :=
  (dat4 V c).before_in_eq_fetched 10 rfl (fun _ => rfl) (fun _ _ _ => rfl) (fun _ => rfl) t d
theorem before4_11 (c : Dev nD) (t : Fin cfg4.N) (d) : (dat4 V c).before 11 t d = iblk4 V c 11 t :=
  (dat4 V c).before_in_eq_fetched 11 rfl (fun _ => rfl) (fun _ _ _ => rfl) (fun _ => rfl) t d
theorem before4_12 (c : Dev nD) (t : Fin cfg4.N) (d) : (dat4 V c).before 12 t d = iblk4 V c 12 t :=
  (dat4 V c).before_in_eq_fetched 12 rfl (fun _ => rfl) (fun _ _ _ => rfl) (fun _ => rfl) t d
theorem before4_13 (c : Dev nD) (t : Fin cfg4.N) (d) : (dat4 V c).before 13 t d = iblk4 V c 13 t :=
  (dat4 V c).before_in_eq_fetched 13 rfl (fun _ => rfl) (fun _ _ _ => rfl) (fun _ => rfl) t d
theorem before4_14 (c : Dev nD) (t : Fin cfg4.N) (d) : (dat4 V c).before 14 t d = iblk4 V c 14 t :=
  (dat4 V c).before_in_eq_fetched 14 rfl (fun _ => rfl) (fun _ _ _ => rfl) (fun _ => rfl) t d
theorem before4_15 (c : Dev nD) (t : Fin cfg4.N) (d) : (dat4 V c).before 15 t d = iblk4 V c 15 t :=
  (dat4 V c).before_in_eq_fetched 15 rfl (fun _ => rfl) (fun _ _ _ => rfl) (fun _ => rfl) t d
theorem before4_16 (c : Dev nD) (t : Fin cfg4.N) (d) : (dat4 V c).before 16 t d = iblk4 V c 16 t :=
  (dat4 V c).before_in_eq_fetched 16 rfl (fun _ => rfl) (fun _ _ _ => rfl) (fun _ => rfl) t d
theorem before4_17 (c : Dev nD) (t : Fin cfg4.N) (d) : (dat4 V c).before 17 t d = iblk4 V c 17 t :=
  (dat4 V c).before_in_eq_fetched 17 rfl (fun _ => rfl) (fun _ _ _ => rfl) (fun _ => rfl) t d

theorem idleAt4_18 : ∀ t : Fin cfg4.N, ¬cond4_2 (grid4.coords t) → cfg4.idle 18 (grid4.coords t) = true := by decide +kernel
theorem noFlush4_18 : ∀ t : Fin cfg4.N, ¬cond4_2 (grid4.coords t) → (cfg4.win 18).flush t = false := by decide +kernel
theorem liveAt4_18 : ∀ t : Fin cfg4.N, cond4_2 (grid4.coords t) → cfg4.idle 18 (grid4.coords t) = false := by decide +kernel

abbrev ms4_0 (t : Fin cfg4.N) : Memref sig .tc .vmem S2000x64 .f32 := win4_0.stage (cfg4.slots t 0)
abbrev ms4_1 (t : Fin cfg4.N) : Memref sig .tc .vmem S2000x64 .f32 := win4_1.stage (cfg4.slots t 1)
abbrev ms4_2 (t : Fin cfg4.N) : Memref sig .tc .vmem S2000x64 .f32 := win4_2.stage (cfg4.slots t 2)
abbrev ms4_3 (t : Fin cfg4.N) : Memref sig .tc .vmem S2000x1 .i32 := win4_3.stage (cfg4.slots t 3)
abbrev ms4_4 (t : Fin cfg4.N) : Memref sig .tc .vmem S64x64 .f32 := win4_4.stage (cfg4.slots t 4)
abbrev ms4_5 (t : Fin cfg4.N) : Memref sig .tc .vmem S64x64 .f32 := win4_5.stage (cfg4.slots t 5)
abbrev ms4_6 (t : Fin cfg4.N) : Memref sig .tc .vmem S64x64 .f32 := win4_6.stage (cfg4.slots t 6)
abbrev ms4_7 (t : Fin cfg4.N) : Memref sig .tc .vmem S1x64 .f32 := win4_7.stage (cfg4.slots t 7)
abbrev ms4_8 (t : Fin cfg4.N) : Memref sig .tc .vmem S64x64 .f32 := win4_8.stage (cfg4.slots t 8)
abbrev ms4_9 (t : Fin cfg4.N) : Memref sig .tc .vmem S1x64 .f32 := win4_9.stage (cfg4.slots t 9)
abbrev ms4_10 (t : Fin cfg4.N) : Memref sig .tc .vmem S1x64 .f32 := win4_10.stage (cfg4.slots t 10)
abbrev ms4_11 (t : Fin cfg4.N) : Memref sig .tc .vmem S1x64 .f32 := win4_11.stage (cfg4.slots t 11)
abbrev ms4_12 (t : Fin cfg4.N) : Memref sig .tc .vmem S1x64 .f32 := win4_12.stage (cfg4.slots t 12)
abbrev ms4_13 (t : Fin cfg4.N) : Memref sig .tc .vmem S1x64 .f32 := win4_13.stage (cfg4.slots t 13)
abbrev ms4_14 (t : Fin cfg4.N) : Memref sig .tc .vmem S64x64 .f32 := win4_14.stage (cfg4.slots t 14)
abbrev ms4_15 (t : Fin cfg4.N) : Memref sig .tc .vmem S1x64 .f32 := win4_15.stage (cfg4.slots t 15)
abbrev ms4_16 (t : Fin cfg4.N) : Memref sig .tc .vmem S64x24 .f32 := win4_16.stage (cfg4.slots t 16)
abbrev ms4_17 (t : Fin cfg4.N) : Memref sig .tc .vmem S1x24 .f32 := win4_17.stage (cfg4.slots t 17)
abbrev ms4_18 (t : Fin cfg4.N) : Memref sig .tc .vmem S512x24 .f32 := win4_18.stage (cfg4.slots t 18)

theorem leaves4_0 (c : Dev nD) (t : Fin cfg4.N) :
    (dat4 V c).leavesExact 0 t = owns (c : Thread nD τ) (ms4_0 t) fullShare (iblk4 V c 0 t) := rfl
theorem leaves4_1 (c : Dev nD) (t : Fin cfg4.N) :
    (dat4 V c).leavesExact 1 t = owns (c : Thread nD τ) (ms4_1 t) fullShare (iblk4 V c 1 t) := rfl
theorem leaves4_2 (c : Dev nD) (t : Fin cfg4.N) :
    (dat4 V c).leavesExact 2 t = owns (c : Thread nD τ) (ms4_2 t) fullShare (iblk4 V c 2 t) := rfl
theorem leaves4_3 (c : Dev nD) (t : Fin cfg4.N) :
    (dat4 V c).leavesExact 3 t = owns (c : Thread nD τ) (ms4_3 t) fullShare (iblk4 V c 3 t) := rfl
theorem leaves4_4 (c : Dev nD) (t : Fin cfg4.N) :
    (dat4 V c).leavesExact 4 t = owns (c : Thread nD τ) (ms4_4 t) fullShare (iblk4 V c 4 t) := rfl
theorem leaves4_5 (c : Dev nD) (t : Fin cfg4.N) :
    (dat4 V c).leavesExact 5 t = owns (c : Thread nD τ) (ms4_5 t) fullShare (iblk4 V c 5 t) := rfl
theorem leaves4_6 (c : Dev nD) (t : Fin cfg4.N) :
    (dat4 V c).leavesExact 6 t = owns (c : Thread nD τ) (ms4_6 t) fullShare (iblk4 V c 6 t) := rfl
theorem leaves4_7 (c : Dev nD) (t : Fin cfg4.N) :
    (dat4 V c).leavesExact 7 t = owns (c : Thread nD τ) (ms4_7 t) fullShare (iblk4 V c 7 t) := rfl
theorem leaves4_8 (c : Dev nD) (t : Fin cfg4.N) :
    (dat4 V c).leavesExact 8 t = owns (c : Thread nD τ) (ms4_8 t) fullShare (iblk4 V c 8 t) := rfl
theorem leaves4_9 (c : Dev nD) (t : Fin cfg4.N) :
    (dat4 V c).leavesExact 9 t = owns (c : Thread nD τ) (ms4_9 t) fullShare (iblk4 V c 9 t) := rfl
theorem leaves4_10 (c : Dev nD) (t : Fin cfg4.N) :
    (dat4 V c).leavesExact 10 t = owns (c : Thread nD τ) (ms4_10 t) fullShare (iblk4 V c 10 t) := rfl
theorem leaves4_11 (c : Dev nD) (t : Fin cfg4.N) :
    (dat4 V c).leavesExact 11 t = owns (c : Thread nD τ) (ms4_11 t) fullShare (iblk4 V c 11 t) := rfl
theorem leaves4_12 (c : Dev nD) (t : Fin cfg4.N) :
    (dat4 V c).leavesExact 12 t = owns (c : Thread nD τ) (ms4_12 t) fullShare (iblk4 V c 12 t) := rfl
theorem leaves4_13 (c : Dev nD) (t : Fin cfg4.N) :
    (dat4 V c).leavesExact 13 t = owns (c : Thread nD τ) (ms4_13 t) fullShare (iblk4 V c 13 t) := rfl
theorem leaves4_14 (c : Dev nD) (t : Fin cfg4.N) :
    (dat4 V c).leavesExact 14 t = owns (c : Thread nD τ) (ms4_14 t) fullShare (iblk4 V c 14 t) := rfl
theorem leaves4_15 (c : Dev nD) (t : Fin cfg4.N) :
    (dat4 V c).leavesExact 15 t = owns (c : Thread nD τ) (ms4_15 t) fullShare (iblk4 V c 15 t) := rfl
theorem leaves4_16 (c : Dev nD) (t : Fin cfg4.N) :
    (dat4 V c).leavesExact 16 t = owns (c : Thread nD τ) (ms4_16 t) fullShare (iblk4 V c 16 t) := rfl
theorem leaves4_17 (c : Dev nD) (t : Fin cfg4.N) :
    (dat4 V c).leavesExact 17 t = owns (c : Thread nD τ) (ms4_17 t) fullShare (iblk4 V c 17 t) := rfl

noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d))
    ∗ (∃ d, owns (c : Thread nD τ) (ms4_11 t) fullShare ((dat4 V c).before 11 t d))
    ∗ (∃ d, owns (c : Thread nD τ) (ms4_12 t) fullShare ((dat4 V c).before 12 t d))
    ∗ (∃ d, owns (c : Thread nD τ) (ms4_13 t) fullShare ((dat4 V c).before 13 t d))
    ∗ (∃ d, owns (c : Thread nD τ) (ms4_14 t) fullShare ((dat4 V c).before 14 t d))
    ∗ (∃ d, owns (c : Thread nD τ) (ms4_15 t) fullShare ((dat4 V c).before 15 t d))
    ∗ (∃ d, owns (c : Thread nD τ) (ms4_16 t) fullShare ((dat4 V c).before 16 t d))
    ∗ (∃ d, owns (c : Thread nD τ) (ms4_17 t) fullShare ((dat4 V c).before 17 t d))
    ∗ (∃ d, owns (c : Thread nD τ) (ms4_18 t) fullShare ((dat4 V c).before 18 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t
    ∗ (dat4 V c).leavesExact 11 t
    ∗ (dat4 V c).leavesExact 12 t
    ∗ (dat4 V c).leavesExact 13 t
    ∗ (dat4 V c).leavesExact 14 t
    ∗ (dat4 V c).leavesExact 15 t
    ∗ (dat4 V c).leavesExact 16 t
    ∗ (dat4 V c).leavesExact 17 t
    ∗ (dat4 V c).leavesExact 18 t)

set_option maxHeartbeats 8000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3, leaves4_4, leaves4_5, leaves4_6, leaves4_7, leaves4_8, leaves4_9, leaves4_10, leaves4_11, leaves4_12, leaves4_13, leaves4_14, leaves4_15, leaves4_16, leaves4_17]
  have hN : t.val < 25 := lt_of_lt_of_eq t.isLt (show cfg4.N = 25 from N_4)
  by_cases h1 : t.val = 0
  · have h2 : ¬t.val = 24 := by omega
    rw [Dat.leavesExact_idle (dat4 V c) 18 t (idleAt4_18 t (fun h => h2 ((hcond4_2 t).mp h))) (noFlush4_18 t (fun h => h2 ((hcond4_2 t).mp h)))]
    rw [Phi4_castSucc V c t, Phi4_zero V c _ _ h1, PhiA4_eq, acc4_first V c t h1]
    unfold step4
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run4_A c (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) ((hcond4_1 t).mpr h1) (fun h => h2 ((hcond4_2 t).mp h)) _ Set.univ _)
    iframe H0 H1 H2 H3 H4 H5 H6 H7 H8 H9 H10 H11 H12 H13 H14 H15 H16 H17 H18 HS
    iintro ⟨H0, H1, H2, H3, H4, H5, H6, H7, H8, H9, H10, H11, H12, H13, H14, H15, H16, H17, H18, HS⟩
    iframe HS Hrest Hg Ho H0 H1 H2 H3 H4 H5 H6 H7 H8 H9 H10 H11 H12 H13 H14 H15 H16 H17
    iexists _; iexact H18
  · by_cases h2 : t.val = 24
    · rw [show (dat4 V c).leavesExact 18 t = owns (c : Thread nD τ) (ms4_18 t) fullShare ((dat4 V c).after 18 t) from by
        unfold Dat.leavesExact; rw [liveAt4_18 t ((hcond4_2 t).mpr h2)], after4_18]
      unfold out4
      rw [Phi4_castSucc V c t, Phi4_pos V c _ _ h1, acc4_later V c t h1]
      unfold step4
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run4_C c (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (fun h => h1 ((hcond4_1 t).mp h)) ((hcond4_2 t).mpr h2) _ Set.univ _)
      iframe H0 H1 H2 H3 H4 H5 H6 H7 H8 H9 H10 H11 H12 H13 H14 H15 H16 H17 HS
      isplitl [H18]; · iexists _; iexact H18
      iintro ⟨H0, H1, H2, H3, H4, H5, H6, H7, H8, H9, H10, H11, H12, H13, H14, H15, H16, H17, H18, HS⟩
      iframe
    · rw [Dat.leavesExact_idle (dat4 V c) 18 t (idleAt4_18 t (fun h => h2 ((hcond4_2 t).mp h))) (noFlush4_18 t (fun h => h2 ((hcond4_2 t).mp h)))]
      rw [Phi4_castSucc V c t, Phi4_pos V c _ _ h1, acc4_later V c t h1]
      unfold step4
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run4_B c (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (fun h => h1 ((hcond4_1 t).mp h)) (fun h => h2 ((hcond4_2 t).mp h)) _ _ Set.univ _)
      iframe H0 H1 H2 H3 H4 H5 H6 H7 H8 H9 H10 H11 H12 H13 H14 H15 H16 H17 H18 HS
      iintro ⟨H0, H1, H2, H3, H4, H5, H6, H7, H8, H9, H10, H11, H12, H13, H14, H15, H16, H17, H18, HS⟩
      iframe HS Hrest Hg Ho H0 H1 H2 H3 H4 H5 H6 H7 H8 H9 H10 H11 H12 H13 H14 H15 H16 H17
      iexists _; iexact H18

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨HS, Hrest, Hg⟩
  isplitl [HS Hrest]
  · isplitl [HS]
    · iexists _; iexact HS
    iexact Hrest
  iexact Hg

theorem hout4 (c : Dev nD) : (dat4 V c).Φ (Fin.last cfg4.N) ⊢ Pipeline.ΦA spec4 c :=
  Phi4_out V c _ (by rw [Fin.val_last]; have : cfg4.N = 25 := N_4; omega)

end Cert.KernelIdeal.Hand

end
-- ==== Proof.KernelIdeal.Segs.lean ====
import proofs.«410414_j13597866459249_2_alg».proof.Proof.KernelIdeal.RegionsP
import proofs.«410414_j13597866459249_2_alg».proof.Proof.KernelIdeal.Reg0
import proofs.«410414_j13597866459249_2_alg».proof.Proof.KernelIdeal.Reg1
import proofs.«410414_j13597866459249_2_alg».proof.Proof.KernelIdeal.Reg2
import proofs.«410414_j13597866459249_2_alg».proof.Proof.KernelIdeal.Reg3
import proofs.«410414_j13597866459249_2_alg».proof.Proof.KernelIdeal.Reg4
import proofs.«410414_j13597866459249_2_alg».proof.Proof.Gen.KernelIdeal.Skeleton
import proofs.«410414_j13597866459249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

noncomputable def outsA : Outs (F := F) := fun _ r c =>
  Pipeline.withArrays spec0 c (V1 m c) (fun w => (dat0 (atTc (V1 m)) c).arrAt w cfg0.N) r

noncomputable def outsB : Outs (F := F) := fun J r c => match J with
  | 2 => outsA m 2 r c
  | _ => Pipeline.withArrays spec1 c (V3 m (outsA m) c) (fun w => (dat1 (atTc (V3 m (outsA m))) c).arrAt w cfg1.N) r

noncomputable def outsC : Outs (F := F) := fun J r c => match J with
  | 2 => outsA m 2 r c
  | 4 => outsB m 4 r c
  | _ => Pipeline.withArrays spec2 c (V5 m (outsB m) c) (fun w => (dat2 (atTc (V5 m (outsB m))) c).arrAt w cfg2.N) r

noncomputable def outsD : Outs (F := F) := fun J r c => match J with
  | 2 => outsA m 2 r c
  | 4 => outsB m 4 r c
  | 6 => outsC m 6 r c
  | _ => Pipeline.withArrays spec3 c (V7 m (outsC m) c) (fun w => (dat3 (atTc (V7 m (outsC m))) c).arrAt w cfg3.N) r

noncomputable def outs : Outs (F := F) := fun J r c => match J with
  | 2 => outsA m 2 r c
  | 4 => outsB m 4 r c
  | 6 => outsC m 6 r c
  | 8 => outsD m 8 r c
  | _ => Pipeline.withArrays spec4 c (V9 m (outsD m) c) (fun w => (dat4 (atTc (V9 m (outsD m))) c).arrAt w cfg4.N) r

abbrev adm : (p : Fin 5) → (pcfgs (F := F) p).Adm := fun p => (cfgs p).toPCfg_adm

noncomputable def pdats : (p : Fin 5) → (c : Dev nD) → Dat τ (Elt F) Unit ℕ (UR sig nD τ) ℕ (cfgs p) c
  | ⟨0, _⟩ => fun c => dat0 (atTc (V1 m)) c
  | ⟨1, _⟩ => fun c => dat1 (atTc (V3 m (outs m))) c
  | ⟨2, _⟩ => fun c => dat2 (atTc (V5 m (outs m))) c
  | ⟨3, _⟩ => fun c => dat3 (atTc (V7 m (outs m))) c
  | ⟨4, _⟩ => fun c => dat4 (atTc (V9 m (outs m))) c

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in
/-- A region's record from its launch facts, its body obligation and the contents of the buffers before and after it. -/
noncomputable def regOf (p : Fin 5) (L : Pipeline.LaunchFacts (nD := nD) (τ := τ) cfgs p) (Vi Vo : Dev nD → Valuation τ sig (Elt F)) (O : List (Ref sig .tc))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Vi c (Pipeline.arrRef (cfgs p).spec w))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hkeep : ∀ c r, r ∉ O → Vo c r = Vi c r)
    (hVo : O.Forall fun (r : Ref sig .tc) => ∀ c, Vo c r = Pipeline.withArrays (cfgs p).spec c (Vi c) (fun w => (pdats m p c).arrAt w (cfgs p).N) r)
    (hio : ∀ w, Pipeline.arrRef (cfgs p).spec w ∉ O → ((cfgs p).win w).isOut = false)
    (hO : ∀ r ∈ O, ∃ w, Pipeline.arrRef (cfgs p).spec w = r) :
    RegionSeg (pcfgs (F := F)) adm (pdats m) () defs₀ Variants.none Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) L.win L.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) p).pre c (fun _ => fullShare) (adm (F := F) p).1 ∗ Pipeline.scopedRest (Ix := Unit) (Name := ℕ) (U := UR sig nD τ) (Lvl := ℕ) (cfgs p).spec c)
        ⊢ (Pipeline.ΦA (cfgs p).spec c : sProp 𝕄) := by
      unfold Pipeline.ΦA
      iintro ⟨Hp, -, Hr⟩
      isplitl [Hr]; · iexact Hr
      iexact Hp
    exact h1.trans (hin c)
  hout c := by
    have h1 : (Pipeline.ΦA (cfgs p).spec c : sProp 𝕄)
        ⊢ iprop((∃ r, prngReg c r) ∗ Pipeline.ownSems0 (fun k : PEmpty => k.elim) c ∗ Pipeline.scopedRest (Ix := Unit) (Name := ℕ) (U := UR sig nD τ) (Lvl := ℕ) (cfgs p).spec c) := by
      rw [Pipeline.ownSems0_none]; unfold Pipeline.ΦA
      iintro ⟨Hr, Hp⟩
      isplitl [Hp]; · iexact Hp
      isplitr; · iempintro
      iexact Hr
    exact (hout c).trans h1
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atTc Vi c) (atTc Vo c) ((pdats m p c).arrAt · (cfgs p).N)
      (fun w => if h : Pipeline.arrRef (cfgs p).spec w ∈ O
        then ((List.forall_iff_forall_mem.mp hVo _ h c).trans (Pipeline.withArrays_arr _ L.win.arr_inj c _ _ w)).symm
        else ((pdats m p c).arrAt_in w (hio w h) _).trans ((hA c w).trans (hkeep c _ h).symm))
      (fun b hb => hkeep c b fun h => hb (by obtain ⟨w, rfl⟩ := hO b h; exact Finset.mem_image_of_mem _ (Finset.mem_univ w)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem upd_fst (V : Valuation τ sig (Elt F)) {a b : Ref sig .tc} (h : a ≠ b) (x y) :
    Function.update (Function.update V (Proc.devRef .tc a) x) (Proc.devRef .tc b) y (Proc.devRef .tc a) = x := by
  rw [Function.update_of_ne (StableHlo.devRef_ne_of_ne h), Function.update_self]

theorem V2_main_v4_0 (o : Outs (F := F)) (c : Dev nD) : V2 m o c main_v4_0 = o 2 main_v4_0 c :=
  upd_fst _ (by decide) _ _
theorem outs_main_v4_0 (c : Dev nD) : outs m 2 main_v4_0 c = (pdats m 0 c).arrAt 2 cfg0.N :=
  Pipeline.withArrays_arr spec0 launch0.win.arr_inj c (V1 m c) (fun w => (pdats m 0 c).arrAt w cfg0.N) 2
theorem V2_main_v4_1 (o : Outs (F := F)) (c : Dev nD) : V2 m o c main_v4_1 = o 2 main_v4_1 c :=
  Function.update_self ..
theorem outs_main_v4_1 (c : Dev nD) : outs m 2 main_v4_1 c = (pdats m 0 c).arrAt 3 cfg0.N :=
  Pipeline.withArrays_arr spec0 launch0.win.arr_inj c (V1 m c) (fun w => (pdats m 0 c).arrAt w cfg0.N) 3

set_option backward.isDefEq.respectTransparency.types false in
noncomputable def reg0 : RegionSeg (pcfgs (F := F)) adm (pdats m) () defs₀ Variants.none Lz lvz 0 :=
  regOf m 0 launch0 (V1 m) (V2 m (outs m)) [main_v4_0, main_v4_1] (fun c => body_obligation0 (atTc (V1 m)) c) (fun _ _ => rfl) (fun _ _ => rfl)
    (fun _ _ => rfl) (fun _ _ => rfl) (fun _ => .rfl) (fun _ => .rfl) (V2_of m (outs m)) ⟨V2_main_v4_0 m _, V2_main_v4_1 m _⟩ (by decide) (by decide)

theorem V4_main_v18_0 (o : Outs (F := F)) (c : Dev nD) : V4 m o c main_v18_0 = o 4 main_v18_0 c :=
  upd_fst _ (by decide) _ _
theorem outs_main_v18_0 (c : Dev nD) : outs m 4 main_v18_0 c = (pdats m 1 c).arrAt 5 cfg1.N :=
  Pipeline.withArrays_arr spec1 launch1.win.arr_inj c (V3 m (outs m) c) (fun w => (pdats m 1 c).arrAt w cfg1.N) 5
theorem V4_main_v18_1 (o : Outs (F := F)) (c : Dev nD) : V4 m o c main_v18_1 = o 4 main_v18_1 c :=
  Function.update_self ..
theorem outs_main_v18_1 (c : Dev nD) : outs m 4 main_v18_1 c = (pdats m 1 c).arrAt 6 cfg1.N :=
  Pipeline.withArrays_arr spec1 launch1.win.arr_inj c (V3 m (outs m) c) (fun w => (pdats m 1 c).arrAt w cfg1.N) 6

set_option backward.isDefEq.respectTransparency.types false in
noncomputable def reg1 : RegionSeg (pcfgs (F := F)) adm (pdats m) () defs₀ Variants.none Lz lvz 1 :=
  regOf m 1 launch1 (V3 m (outs m)) (V4 m (outs m)) [main_v18_0, main_v18_1] (fun c => body_obligation1 (atTc (V3 m (outs m))) c) (fun _ _ => rfl) (fun _ _ => rfl)
    (fun _ _ => rfl) (fun _ _ => rfl) (fun _ => .rfl) (fun _ => .rfl) (V4_of m (outs m)) ⟨V4_main_v18_0 m _, V4_main_v18_1 m _⟩ (by decide) (by decide)

theorem V6_main_v32_0 (o : Outs (F := F)) (c : Dev nD) : V6 m o c main_v32_0 = o 6 main_v32_0 c :=
  upd_fst _ (by decide) _ _
theorem outs_main_v32_0 (c : Dev nD) : outs m 6 main_v32_0 c = (pdats m 2 c).arrAt 6 cfg2.N :=
  Pipeline.withArrays_arr spec2 launch2.win.arr_inj c (V5 m (outs m) c) (fun w => (pdats m 2 c).arrAt w cfg2.N) 6
theorem V6_main_v32_1 (o : Outs (F := F)) (c : Dev nD) : V6 m o c main_v32_1 = o 6 main_v32_1 c :=
  Function.update_self ..
theorem outs_main_v32_1 (c : Dev nD) : outs m 6 main_v32_1 c = (pdats m 2 c).arrAt 7 cfg2.N :=
  Pipeline.withArrays_arr spec2 launch2.win.arr_inj c (V5 m (outs m) c) (fun w => (pdats m 2 c).arrAt w cfg2.N) 7

set_option backward.isDefEq.respectTransparency.types false in
noncomputable def reg2 : RegionSeg (pcfgs (F := F)) adm (pdats m) () defs₀ Variants.none Lz lvz 2 :=
  regOf m 2 launch2 (V5 m (outs m)) (V6 m (outs m)) [main_v32_0, main_v32_1] (fun c => body_obligation2 (atTc (V5 m (outs m))) c) (fun _ _ => rfl) (fun _ _ => rfl)
    (fun _ _ => rfl) (fun _ _ => rfl) (fun _ => .rfl) (fun _ => .rfl) (V6_of m (outs m)) ⟨V6_main_v32_0 m _, V6_main_v32_1 m _⟩ (by decide) (by decide)

theorem V8_main_v46_0 (o : Outs (F := F)) (c : Dev nD) : V8 m o c main_v46_0 = o 8 main_v46_0 c :=
  upd_fst _ (by decide) _ _
theorem outs_main_v46_0 (c : Dev nD) : outs m 8 main_v46_0 c = (pdats m 3 c).arrAt 6 cfg3.N :=
  Pipeline.withArrays_arr spec3 launch3.win.arr_inj c (V7 m (outs m) c) (fun w => (pdats m 3 c).arrAt w cfg3.N) 6
theorem V8_main_v46_1 (o : Outs (F := F)) (c : Dev nD) : V8 m o c main_v46_1 = o 8 main_v46_1 c :=
  Function.update_self ..
theorem outs_main_v46_1 (c : Dev nD) : outs m 8 main_v46_1 c = (pdats m 3 c).arrAt 7 cfg3.N :=
  Pipeline.withArrays_arr spec3 launch3.win.arr_inj c (V7 m (outs m) c) (fun w => (pdats m 3 c).arrAt w cfg3.N) 7

set_option backward.isDefEq.respectTransparency.types false in
noncomputable def reg3 : RegionSeg (pcfgs (F := F)) adm (pdats m) () defs₀ Variants.none Lz lvz 3 :=
  regOf m 3 launch3 (V7 m (outs m)) (V8 m (outs m)) [main_v46_0, main_v46_1] (fun c => body_obligation3 (atTc (V7 m (outs m))) c) (fun _ _ => rfl) (fun _ _ => rfl)
    (fun _ _ => rfl) (fun _ _ => rfl) (fun _ => .rfl) (fun _ => .rfl) (V8_of m (outs m)) ⟨V8_main_v46_0 m _, V8_main_v46_1 m _⟩ (by decide) (by decide)

theorem V10_main_v59 (o : Outs (F := F)) (c : Dev nD) : V10 m o c main_v59 = o 10 main_v59 c :=
  Function.update_self ..
theorem outs_main_v59 (c : Dev nD) : outs m 10 main_v59 c = (pdats m 4 c).arrAt 18 cfg4.N :=
  Pipeline.withArrays_arr spec4 launch4.win.arr_inj c (V9 m (outs m) c) (fun w => (pdats m 4 c).arrAt w cfg4.N) 18

set_option backward.isDefEq.respectTransparency.types false in
noncomputable def reg4 : RegionSeg (pcfgs (F := F)) adm (pdats m) () defs₀ Variants.none Lz lvz 4 :=
  regOf m 4 launch4 (V9 m (outs m)) (V10 m (outs m)) [main_v59] (fun c => body_obligation4 (atTc (V9 m (outs m))) c) (fun _ _ => rfl) (fun _ _ => rfl)
    (fun _ _ => rfl) (fun _ _ => rfl) (hin4 (atTc (V9 m (outs m)))) (hout4 (atTc (V9 m (outs m)))) (V10_of m (outs m)) (V10_main_v59 m _) (by decide) (by decide)

noncomputable def Eseg : Fin 6 → Dev nD → sProp 𝕄
  | ⟨5, _⟩ => fun c => iprop(∃ W, owes (c : Thread nD τ) (0 : CellTallies nD τ sig Unit) W)
  | _ => fun c => Rr c

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Eseg (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Eseg (F := F) 0) : sProp 𝕄) := bigSep_mono fun c _ => by
    show _ ⊢ Rr c
    iintro ⟨-, HO, -, Hp, -⟩
    isplitl [Hp]; · iexists _; iexact Hp
    iexists ∅; iexact HO
  iintro ⟨H, -⟩
  imodintro
  iapply hmono; iexact H

/-- After the last region nothing of the rest but what is owed, which is nothing, is kept. -/
theorem hpost4 (c : Dev nD) : iprop(StableHlo.held (c : Thread nD τ) (Pipeline.ucRefs τ sig) (V10 m (outs m) c) ∗ Rr c)
    ⊢ iprop(StableHlo.held (c : Thread nD τ) (Pipeline.ucRefs τ sig) (V10 m (outs m) c) ∗ ∃ W, owes (c : Thread nD τ) (0 : CellTallies nD τ sig Unit) W) := by
  iintro ⟨Hh, -, HO⟩
  isplitl [Hh]; · iexact Hh
  iexact HO

end Cert.KernelIdeal.Hand

end
-- ==== Proof.KernelIdeal.RunOut.lean ====
import proofs.«410414_j13597866459249_2_alg».proof.Proof.KernelIdeal.Segs

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The launch over the five regions' records, with the result buffer read at what the last region leaves in it. -/
theorem run_val (ρ : Dev nD → PrngReg) : θ_run defs (onTc (τ := τ) (main (F := F))) ⟨m, fun _ => 0, ρ⟩ (fun r => ∀ c : Dev nD,
      r.2.mem ((c.tc : Thread nD τ).loc main_v59) = outs m 10 main_v59 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  run_cond m emb₁ () Variants.none Lz lvz (fun _ _ => rfl) ρ (outs m) (pdats m) 0 (fun _ => iprop(emp))
    (initOf (Pipeline.cells cfgs cellOf_inj) (Pipeline.launchToks cfgs cellOf_inj)) hu0 Eseg (hE0 ρ) (fun c => .rfl)
    (reg0 m) (fun c => .rfl) (fun c => .rfl) (reg1 m) (fun c => .rfl) (fun c => .rfl) (reg2 m) (fun c => .rfl) (fun c => .rfl)
    (reg3 m) (fun c => .rfl) (fun c => .rfl) (reg4 m) (fun c => .rfl) (hpost4 m)

end Cert.KernelIdeal.Hand

end
-- ==== Proof.Spec.lean ====
import Idealize.ShloMosaic.PureOps.Ideal
import Idealize.ShloMosaic.Lib.ValueIdx
import Mathlib.Algebra.BigOperators.Fin

noncomputable section

namespace Cert.Spec

open Idealize.ShloMosaic

abbrev Mat (a b : ℕ) := Fin a → Fin b → EReal
abbrev Row (b : ℕ) := Fin b → EReal

abbrev ofIdx2 {a b : ℕ} (f : (⟨2, ![a, b]⟩ : Shape).Idx → EReal) : Mat a b := fun n k => f (ValueIdx.ix2 n k)

abbrev ofIdx1 {b : ℕ} (f : (⟨1, ![b]⟩ : Shape).Idx → EReal) : Row b := fun k => f (ValueIdx.ix1 k)

abbrev ofIdx2Row {b : ℕ} (f : (⟨2, ![1, b]⟩ : Shape).Idx → EReal) : Row b := fun k => f (ValueIdx.ix2 0 k)

def mm {a b c : ℕ} (A : Mat a b) (B : Mat b c) : Mat a c := fun n j => ∑ k : Fin b, A n k * B k j

def add {a b : ℕ} (A B : Mat a b) : Mat a b := fun n j => A n j + B n j

def addB {a b : ℕ} (A : Mat a b) (v : Row b) : Mat a b := fun n j => A n j + v j

def relu {a b : ℕ} (A : Mat a b) : Mat a b := fun n j => max (A n j) 0

def agg {E N d : ℕ} (ρ : Fin E → Fin N) (lnd : Fin E → Option (Fin N)) (H : Mat N d) : Mat N d :=
  fun n j => ∑ e : Fin E, if lnd e = some n then H (ρ e) j else 0

def layer {E N d : ℕ} (ρ : Fin E → Fin N) (lnd : Fin E → Option (Fin N))
    (W1 : Mat d 64) (b1 : Row 64) (W2 : Mat 64 64) (b2 : Row 64) (H : Mat N d) : Mat N 64 :=
  relu (addB (mm (relu (addB (mm (add H (agg ρ lnd H)) W1) b1)) W2) b2)

def layer0K {E N : ℕ} (ρ : Fin E → Fin N) (lnd : Fin E → Option (Fin N))
    (b1 : Row 64) (W2 : Mat 64 64) (b2 : Row 64) (P : Mat N 64) : Mat N 64 :=
  relu (addB (mm (relu (addB (add P (agg ρ lnd P)) b1)) W2) b2)

def cat3 {N : ℕ} (H0 H1 H2 : Mat N 64) : Mat N 192 :=
  fun n k => if h : k.val < 64 then H0 n ⟨k.val, h⟩ else if h' : k.val < 128 then H1 n ⟨k.val - 64, by omega⟩ else H2 n ⟨k.val - 128, by omega⟩

def rows64 (J : Mat 192 64) (off : ℕ) (h : off + 64 ≤ 192) : Mat 64 64 := fun k j => J ⟨off + k.val, by omega⟩ j

def mixK {N : ℕ} (H0 H1 H2 : Mat N 64) (J : Mat 192 64) (jb : Row 64) : Mat N 64 :=
  addB (add (add (mm H0 (rows64 J 0 (by omega))) (mm H1 (rows64 J 64 (by omega)))) (mm H2 (rows64 J 128 (by omega)))) jb

def mixR {N : ℕ} (H0 H1 H2 : Mat N 64) (J : Mat 192 64) (jb : Row 64) : Mat N 64 :=
  addB (mm (cat3 H0 H1 H2) J) jb

def poolK {N G d : ℕ} (oh : Fin N → Fin G → EReal) (H : Mat N d) : Mat G d := fun s j => ∑ n : Fin N, oh n s * H n j

def poolR {N G d : ℕ} (lndB : Fin N → Option (Fin G)) (H : Mat N d) : Mat G d :=
  fun s j => 0 + ∑ n : Fin N, if lndB n = some s then H n j else 0

def head (eps : EReal) (fw1 : Mat 64 64) (fb1 bg bb bm bv : Row 64) (fw2 : Mat 64 64) (fb2 : Row 64) (ow : Mat 64 24) (ob : Row 24)
    (g : Mat 512 64) : Mat 512 24 :=
  addB (mm (addB (mm (relu (fun s j => (addB (mm g fw1) fb1 s j - bm j) * Ideal.rsqrt (bv j + eps) * bg j + bb j)) fw2) fb2) ow) ob

end Cert.Spec

end
-- ==== Proof.KernelIdeal.Rows.lean ====
import Idealize.ShloMosaic.Lib.StackMember
import Idealize.ShloMosaic.Lib.Pipeline.Value
import Idealize.ShloMosaic.Lib.ValueIdx

noncomputable section

namespace Cert.KernelIdeal.Hand

open Idealize.ShloMosaic

theorem zero_off : (![0, 0] : Fin 2 → Nat) = fun _ => 0 := funext fun a => by fin_cases a <;> rfl

/-- A plain matrix product into a zero accumulator, read at an index, is the sum over the contracted coordinate. -/
theorem mm_apply {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (p : Fin m) (q : Fin n) :
    FloatOps.matmul d none A B (constant (F := Ideal) ⟨2, ![m, n]⟩ .f32 0x00000000#32) (ValueIdx.ix2 p q)
      = ∑ j : Fin k, A (ValueIdx.ix2 p j) * B (ValueIdx.ix2 j q) := by
  subst hd
  exact (congrFun (matmul_zero_eq_dotGeneral _ none A B) _).trans (StackMember.dotGeneral_plain_apply none A B p q)

/-- An index whose row is `t * b + r` with `r < b` lies in the block of `b` rows and all columns numbered `t`. -/
theorem mem_row_block {n b c : ℕ} (hb : 0 < b) (i : (⟨2, ![n, c]⟩ : Shape).Idx) (idx : Fin 2 → ℕ)
    (h : idx 0 = (i 0).val / b ∧ idx 1 = 0) (inb) :
    i ∈ (Rect.unit (s := ⟨2, ![n, c]⟩) (fun a => idx a * (![b, c] : Fin 2 → ℕ) a) ![b, c] inb).set :=
  Rect.mem_set_unit.2 fun a => match a with
    | ⟨0, _⟩ => by
      show idx 0 * b ≤ (i 0).val ∧ (i 0).val < idx 0 * b + b
      rw [h.1]; exact ⟨Nat.div_mul_le_self _ _, Nat.lt_div_mul_add hb⟩
    | ⟨1, _⟩ => by
      show idx 1 * c ≤ (i 1).val ∧ (i 1).val < idx 1 * c + c
      rw [h.2, Nat.zero_mul, Nat.zero_add]; exact ⟨Nat.zero_le _, (i 1).isLt⟩

/-- The coordinates in the array of entry `j` of the block of `b` rows and all columns numbered `t`. -/
theorem row_block_emb {t b c x0 x1 j0 j1 : ℕ} (idx : Fin 2 → ℕ) (h : idx 0 = t ∧ idx 1 = 0)
    (h0 : x0 = idx 0 * b + j0) (h1 : x1 = idx 1 * c + j1) : x0 = t * b + j0 ∧ x1 = j1 := by
  rw [h0, h1, h.1, h.2, Nat.zero_mul, Nat.zero_add]; exact ⟨rfl, rfl⟩

/-- A function read through a re-indexing that moves nothing is the function. -/
theorem read_whole_block {S : Shape} {α : Type} (f : S.Idx → α) (e : S.Idx → S.Idx) (idx : Fin S.rank → ℕ) (h : ∀ a, idx a = 0)
    (he : ∀ y a, (e y a : ℕ) = idx a * S.size a + y a) : (fun y => f (e y)) = f :=
  funext fun y => congrArg f (funext fun a => Fin.ext (by rw [he, h, Nat.zero_mul, Nat.zero_add]))

/-- Entry `(r, k)` of the block of `b` rows numbered `t`, read where the block sits in the array, is the array's entry `(t * b + r, k)`. -/
theorem read_row_block {n b c : ℕ} {α : Type} (f : (⟨2, ![n, c]⟩ : Shape).Idx → α)
    (e : (⟨2, ![b, c]⟩ : Shape).Idx → (⟨2, ![n, c]⟩ : Shape).Idx) (idx : Fin 2 → ℕ) {t : ℕ} (h : idx 0 = t ∧ idx 1 = 0)
    (he : ∀ y a, (e y a : ℕ) = idx a * (![b, c] : Fin 2 → ℕ) a + y a) (r : Fin b) (k : Fin c) (m : Fin n) (hm : m.val = t * b + r.val) :
    f (e (ValueIdx.ix2 r k)) = f (ValueIdx.ix2 m k) :=
  congrArg f (Shape.idx_ext₂ ((he _ 0).trans (by rw [h.1, hm] <;> rfl)) ((he _ 1).trans (by rw [h.2, Nat.zero_mul, Nat.zero_add] <;> rfl)))

end Cert.KernelIdeal.Hand

end
-- ==== Proof.KernelIdeal.Val0.lean ====
import proofs.«410414_j13597866459249_2_alg».proof.Proof.KernelIdeal.Reg0
import proofs.«410414_j13597866459249_2_alg».proof.Proof.Spec
import proofs.«410414_j13597866459249_2_alg».proof.Proof.KernelIdeal.Rows
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe
open Idealize.ShloMosaic.Pipeline (Dat)

section Value0

open Idealize.ShloMosaic.ValueIdx

variable (V : (c : Dev nD) → (b : Ref sig .tc) → Buf (Elt Ideal) ((c : Thread nD τ).loc b))

noncomputable abbrev G0 (c : Dev nD) : Spec.Mat 50000 64 :=
  Spec.mm (Spec.ofIdx2 (a := 50000) (b := 100) (V c main_arg0)) (Spec.ofIdx2 (a := 100) (b := 64) (V c main_arg3))

theorem idx_facts0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Entry `j` of either block computed at point `t` is the product's entry at row `t * 2000 + j 0`, column `j 1`. -/
theorem blockval0 (c : Dev nD) (t : Fin cfg0.N) (j : S2000x64.Idx) (i : S50000x64.Idx) (idx : Fin 2 → ℕ)
    (h : idx 0 = t.val ∧ idx 1 = 0) (hi : ∀ a, (i a).val = idx a * S2000x64.size a + (j a).val) :
    (dat0 (F := Ideal) V c).after 2 t j = G0 V c (i 0) (i 1) ∧ (dat0 (F := Ideal) V c).after 3 t j = G0 V c (i 0) (i 1) := by
  rw [after0_2, after0_3, out0_2, out0_3, View.canon_unit_zero zero_off, View.canon_unit_zero zero_off]
  simp only [View.ld_unit_zero (S := S2000x100) zero_off, View.ld_unit_zero (S := S100x64) zero_off]
  obtain ⟨r0, r1, -⟩ := idx_facts0 t
  obtain ⟨p, q, rfl⟩ : ∃ (p : Fin 2000) (q : Fin 64), j = ix2 p q := ⟨j 0, j 1, eq_ix2 j⟩
  obtain ⟨hi0, hi1⟩ := row_block_emb idx h (hi 0) (hi 1)
  refine (fun hh => ⟨hh, hh⟩) ?_
  refine (mm_apply _ rfl _ _ p q).trans (Finset.sum_congr rfl fun k _ => congrArg₂ (· * ·) ?_ ?_)
  · exact read_row_block (V c main_arg0 : S50000x100.Idx → EReal) _ _ r0 (win0_0.rect_emb_val t) p k _ hi0
  · show V c main_arg3 (((cfg0.win 1).blk t).view.emb (ix2 k q)) = V c main_arg3 (ix2 k (i 1))
    exact congrArg _ (Shape.idx_ext₂ (win0_1.rect_emb_val_of_index_zero t 0 r1.1 _) ((win0_1.rect_emb_val_of_index_zero t 1 r1.2 _).trans hi1.symm))

theorem covered0 (i : S50000x64.Idx) :
    (∃ t : Fin cfg0.N, (cfg0.win 2).flush t = true ∧ i ∈ ((cfg0.win 2).blk t).view.set)
      ∧ ∃ t : Fin cfg0.N, (cfg0.win 3).flush t = true ∧ i ∈ ((cfg0.win 3).blk t).view.set := by
  have ht : (i 0).val / 2000 < cfg0.N := (Nat.div_lt_of_lt_mul (n := 2000) (k := 25) (i 0).isLt).trans_eq N_0.symm
  refine ⟨⟨⟨_, ht⟩, flush0_2 _, ?_⟩, ⟨⟨_, ht⟩, flush0_3 _, ?_⟩⟩
  · show i ∈ ((View.whole main_v4_0).slice (win0_2.rect ⟨_, ht⟩)).set
    rw [View.set_slice_whole]
    exact mem_row_block (by decide) i _ (idx_facts0 _).2.2.1 _
  · show i ∈ ((View.whole main_v4_1).slice (win0_3.rect ⟨_, ht⟩)).set
    rw [View.set_slice_whole]
    exact mem_row_block (by decide) i _ (idx_facts0 _).2.2.2 _

theorem val0_2 (c : Dev nD) :
    Spec.ofIdx2 (a := 50000) (b := 64) ((dat0 (F := Ideal) V c).arrAt 2 cfg0.N)
      = Spec.mm (Spec.ofIdx2 (a := 50000) (b := 100) (V c main_arg0)) (Spec.ofIdx2 (a := 100) (b := 64) (V c main_arg3)) := by
  rw [(dat0 (F := Ideal) V c).arrAt_eq_of_cover 2 (fun i => G0 V c (i 0) (i 1)) (fun t _ =>
    funext fun j => (blockval0 V c t j _ _ (idx_facts0 t).2.2.1 (win0_2.rect_emb_val t j)).1) fun i => (covered0 i).1]
  rfl

theorem val0_3 (c : Dev nD) :
    Spec.ofIdx2 (a := 50000) (b := 64) ((dat0 (F := Ideal) V c).arrAt 3 cfg0.N)
      = Spec.mm (Spec.ofIdx2 (a := 50000) (b := 100) (V c main_arg0)) (Spec.ofIdx2 (a := 100) (b := 64) (V c main_arg3)) := by
  rw [(dat0 (F := Ideal) V c).arrAt_eq_of_cover 3 (fun i => G0 V c (i 0) (i 1)) (fun t _ =>
    funext fun j => (blockval0 V c t j _ _ (idx_facts0 t).2.2.2 (win0_3.rect_emb_val t j)).2) fun i => (covered0 i).2]
  rfl

end Value0
end Cert.KernelIdeal.Hand

end
-- ==== Proof.KernelIdeal.Val1.lean ====
import proofs.«410414_j13597866459249_2_alg».proof.Proof.KernelIdeal.Reg1
import proofs.«410414_j13597866459249_2_alg».proof.Proof.Spec
import proofs.«410414_j13597866459249_2_alg».proof.Proof.KernelIdeal.Rows
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

section Value

open Idealize.ShloMosaic.ValueIdx

variable (V : (c : Dev nD) → (b : Ref sig .tc) → Buf (Elt Ideal) ((c : Thread nD τ).loc b))

theorem idx_rows1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem pay1_apply (x0 x1 : Vec Ideal S2000x64 .f32) (x2 : Vec Ideal S1x64 .f32) (x3 : Vec Ideal S64x64 .f32) (x4 : Vec Ideal S1x64 .f32)
    (p : Fin 2000) (q : Fin 64) :
    k1_pay1 (F := Ideal) x0 x1 x2 x3 x4 (ix2 p q)
      = max ((∑ k : Fin 64, max (x0 (ix2 p k) + x1 (ix2 p k) + x2 (ix2 (0 : Fin 1) k)) 0 * x3 (ix2 k q)) + x4 (ix2 (0 : Fin 1) q)) 0 := by
  unfold k1_pay1
  simp only [matmul, shapeCast_self, maximumf_apply, addf_apply, broadcast_apply, truncf_apply, broadcastTo_1b_ab_apply,
    mm_apply dot_S2000x64_S64x64_S2000x64_1_0_0_1_n_n rfl, Ideal.ofBits_def, Ideal.ofBits_zero_f32]

noncomputable def G1 (c : Dev nD) : Spec.Mat 50000 64 :=
  Spec.relu (Spec.addB (Spec.mm (Spec.relu (Spec.addB (Spec.add (Spec.ofIdx2 (V c main_v4_0)) (Spec.ofIdx2 (V c main_v15))) (Spec.ofIdx2Row (V c main_v16)))) (Spec.ofIdx2 (V c main_arg5))) (Spec.ofIdx2Row (V c main_v17)))

/-- Entry `j` of either block computed at point `t` is the layer's entry at row `t * 2000 + j 0`, column `j 1`: the layer acts row by row. -/
theorem blockval1 (c : Dev nD) (t : Fin cfg1.N) (j : S2000x64.Idx) (i : S50000x64.Idx) (idx : Fin 2 → ℕ)
    (h : idx 0 = t.val ∧ idx 1 = 0) (hi : ∀ a, (i a).val = idx a * S2000x64.size a + (j a).val) :
    (dat1 (F := Ideal) V c).after 5 t j = G1 V c (i 0) (i 1) ∧ (dat1 (F := Ideal) V c).after 6 t j = G1 V c (i 0) (i 1) := by
  rw [after1_5, after1_6, out1_5, out1_6, View.canon_unit_zero zero_off, View.canon_unit_zero zero_off]
  simp only [View.ld_unit_zero (S := S2000x64) zero_off, View.ld_unit_zero (S := S64x64) zero_off, View.ld_unit_zero (S := S1x64) zero_off]
  obtain ⟨r0, r1, -⟩ := idx_rows1 t
  obtain ⟨p, q, rfl⟩ : ∃ (p : Fin 2000) (q : Fin 64), j = ix2 p q := ⟨j 0, j 1, eq_ix2 j⟩
  obtain ⟨hi0, hi1⟩ := row_block_emb idx h (hi 0) (hi 1)
  have e0 : ∀ k, iblk1 V c 0 t (ix2 p k) = V c main_v4_0 (ix2 (i 0) k) := fun k =>
    read_row_block (V c main_v4_0) _ _ r0 (win1_0.rect_emb_val t) p k _ hi0
  have e1 : ∀ k, iblk1 V c 1 t (ix2 p k) = V c main_v15 (ix2 (i 0) k) := fun k =>
    read_row_block (V c main_v15) _ _ r1 (win1_1.rect_emb_val t) p k _ hi0
  have h2 : iblk1 V c 2 t = V c main_v16 := read_whole_block (V c main_v16) _ _ (Fin.forall_fin_two.2 ⟨rfl, rfl⟩) (win1_2.rect_emb_val t)
  have h3 : iblk1 V c 3 t = V c main_arg5 := read_whole_block (V c main_arg5) _ _ (Fin.forall_fin_two.2 ⟨rfl, rfl⟩) (win1_3.rect_emb_val t)
  have h4 : iblk1 V c 4 t = V c main_v17 := read_whole_block (V c main_v17) _ _ (Fin.forall_fin_two.2 ⟨rfl, rfl⟩) (win1_4.rect_emb_val t)
  refine (fun hh => ⟨hh, hh⟩) ?_
  rw [pay1_apply]
  simp only [e0, e1, h2, h3, h4]
  exact congrArg (fun q' : Fin 64 => G1 V c (i 0) q') (Fin.ext hi1.symm)

theorem covered1 (i : S50000x64.Idx) :
    (∃ t : Fin cfg1.N, (cfg1.win 5).flush t = true ∧ i ∈ ((cfg1.win 5).blk t).view.set)
      ∧ ∃ t : Fin cfg1.N, (cfg1.win 6).flush t = true ∧ i ∈ ((cfg1.win 6).blk t).view.set := by
  have ht : (i 0).val / 2000 < cfg1.N := (Nat.div_lt_of_lt_mul (n := 2000) (k := 25) (i 0).isLt).trans_eq N_1.symm
  refine ⟨⟨⟨_, ht⟩, flush1_5 _, ?_⟩, ⟨⟨_, ht⟩, flush1_6 _, ?_⟩⟩
  · show i ∈ ((View.whole main_v18_0).slice (win1_5.rect ⟨_, ht⟩)).set
    rw [View.set_slice_whole]
    exact mem_row_block (by decide) i _ (idx_rows1 _).2.2.1 _
  · show i ∈ ((View.whole main_v18_1).slice (win1_6.rect ⟨_, ht⟩)).set
    rw [View.set_slice_whole]
    exact mem_row_block (by decide) i _ (idx_rows1 _).2.2.2 _

theorem val1_5 (c : Dev nD) :
    Spec.ofIdx2 ((dat1 (F := Ideal) V c).arrAt 5 cfg1.N)
      = Spec.relu (Spec.addB (Spec.mm (Spec.relu (Spec.addB (Spec.add (Spec.ofIdx2 (V c main_v4_0)) (Spec.ofIdx2 (V c main_v15))) (Spec.ofIdx2Row (V c main_v16)))) (Spec.ofIdx2 (V c main_arg5))) (Spec.ofIdx2Row (V c main_v17))) := by
  rw [(dat1 (F := Ideal) V c).arrAt_eq_of_cover 5 (fun i => G1 V c (i 0) (i 1)) (fun t _ =>
    funext fun j => (blockval1 V c t j _ _ (idx_rows1 t).2.2.1 (win1_5.rect_emb_val t j)).1) fun i => (covered1 i).1]
  rfl

theorem val1_6 (c : Dev nD) :
    Spec.ofIdx2 ((dat1 (F := Ideal) V c).arrAt 6 cfg1.N)
      = Spec.relu (Spec.addB (Spec.mm (Spec.relu (Spec.addB (Spec.add (Spec.ofIdx2 (V c main_v4_0)) (Spec.ofIdx2 (V c main_v15))) (Spec.ofIdx2Row (V c main_v16)))) (Spec.ofIdx2 (V c main_arg5))) (Spec.ofIdx2Row (V c main_v17))) := by
  rw [(dat1 (F := Ideal) V c).arrAt_eq_of_cover 6 (fun i => G1 V c (i 0) (i 1)) (fun t _ =>
    funext fun j => (blockval1 V c t j _ _ (idx_rows1 t).2.2.2 (win1_6.rect_emb_val t j)).2) fun i => (covered1 i).2]
  rfl

end Value
end Cert.KernelIdeal.Hand

end
-- ==== Proof.KernelIdeal.Val2.lean ====
import proofs.«410414_j13597866459249_2_alg».proof.Proof.KernelIdeal.Reg2
import proofs.«410414_j13597866459249_2_alg».proof.Proof.Spec
import proofs.«410414_j13597866459249_2_alg».proof.Proof.KernelIdeal.Rows
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

section Value

open Idealize.ShloMosaic.ValueIdx

variable (V : (c : Dev nD) → (b : Ref sig .tc) → Buf (Elt Ideal) ((c : Thread nD τ).loc b))

theorem idx_rows2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

theorem pay2_apply (x0 x1 : Vec Ideal S2000x64 .f32) (x2 : Vec Ideal S64x64 .f32) (x3 : Vec Ideal S1x64 .f32)
    (x4 : Vec Ideal S64x64 .f32) (x5 : Vec Ideal S1x64 .f32) (p : Fin 2000) (q : Fin 64) :
    k2_pay1 (F := Ideal) x0 x1 x2 x3 x4 x5 (ix2 p q)
      = max ((∑ k : Fin 64, max ((∑ k' : Fin 64, (x0 (ix2 p k') + x1 (ix2 p k')) * x2 (ix2 k' k)) + x3 (ix2 (0 : Fin 1) k)) 0 * x4 (ix2 k q))
          + x5 (ix2 (0 : Fin 1) q)) 0 := by
  unfold k2_pay1
  simp only [matmul, shapeCast_self, maximumf_apply, addf_apply, broadcast_apply, truncf_apply, broadcastTo_1b_ab_apply,
    mm_apply dot_S2000x64_S64x64_S2000x64_1_0_0_1_n_n rfl, Ideal.ofBits_def, Ideal.ofBits_zero_f32]

noncomputable def G2 (c : Dev nD) : Spec.Mat 50000 64 :=
  Spec.relu (Spec.addB (Spec.mm (Spec.relu (Spec.addB (Spec.mm (Spec.add (Spec.ofIdx2 (a := 50000) (b := 64) (V c main_v18_0)) (Spec.ofIdx2 (a := 50000) (b := 64) (V c main_v29))) (Spec.ofIdx2 (a := 64) (b := 64) (V c main_arg7))) (Spec.ofIdx2Row (b := 64) (V c main_v30)))) (Spec.ofIdx2 (a := 64) (b := 64) (V c main_arg9))) (Spec.ofIdx2Row (b := 64) (V c main_v31)))

/-- Entry `j` of either block computed at point `t` is the layer's entry at row `t * 2000 + j 0`, column `j 1`: the layer acts row by row. -/
theorem blockval2 (c : Dev nD) (t : Fin cfg2.N) (j : S2000x64.Idx) (i : S50000x64.Idx) (idx : Fin 2 → ℕ)
    (h : idx 0 = t.val ∧ idx 1 = 0) (hi : ∀ a, (i a).val = idx a * S2000x64.size a + (j a).val) :
    (dat2 (F := Ideal) V c).after 6 t j = G2 V c (i 0) (i 1) ∧ (dat2 (F := Ideal) V c).after 7 t j = G2 V c (i 0) (i 1) := by
  rw [after2_6, after2_7, out2_6, out2_7, View.canon_unit_zero zero_off, View.canon_unit_zero zero_off]
  simp only [View.ld_unit_zero (S := S2000x64) zero_off, View.ld_unit_zero (S := S64x64) zero_off, View.ld_unit_zero (S := S1x64) zero_off]
  obtain ⟨r0, r1, -⟩ := idx_rows2 t
  obtain ⟨p, q, rfl⟩ : ∃ (p : Fin 2000) (q : Fin 64), j = ix2 p q := ⟨j 0, j 1, eq_ix2 j⟩
  obtain ⟨hi0, hi1⟩ := row_block_emb idx h (hi 0) (hi 1)
  have e0 : ∀ k, iblk2 V c 0 t (ix2 p k) = V c main_v18_0 (ix2 (i 0) k) := fun k =>
    read_row_block (V c main_v18_0) _ _ r0 (win2_0.rect_emb_val t) p k _ hi0
  have e1 : ∀ k, iblk2 V c 1 t (ix2 p k) = V c main_v29 (ix2 (i 0) k) := fun k =>
    read_row_block (V c main_v29) _ _ r1 (win2_1.rect_emb_val t) p k _ hi0
  have h2 : iblk2 V c 2 t = V c main_arg7 := read_whole_block (V c main_arg7) _ _ (Fin.forall_fin_two.2 ⟨rfl, rfl⟩) (win2_2.rect_emb_val t)
  have h3 : iblk2 V c 3 t = V c main_v30 := read_whole_block (V c main_v30) _ _ (Fin.forall_fin_two.2 ⟨rfl, rfl⟩) (win2_3.rect_emb_val t)
  have h4 : iblk2 V c 4 t = V c main_arg9 := read_whole_block (V c main_arg9) _ _ (Fin.forall_fin_two.2 ⟨rfl, rfl⟩) (win2_4.rect_emb_val t)
  have h5 : iblk2 V c 5 t = V c main_v31 := read_whole_block (V c main_v31) _ _ (Fin.forall_fin_two.2 ⟨rfl, rfl⟩) (win2_5.rect_emb_val t)
  refine (fun hh => ⟨hh, hh⟩) ?_
  rw [pay2_apply]
  simp only [e0, e1, h2, h3, h4, h5]
  exact congrArg (fun q' : Fin 64 => G2 V c (i 0) q') (Fin.ext hi1.symm)

theorem covered2 (i : S50000x64.Idx) :
    (∃ t : Fin cfg2.N, (cfg2.win 6).flush t = true ∧ i ∈ ((cfg2.win 6).blk t).view.set)
      ∧ ∃ t : Fin cfg2.N, (cfg2.win 7).flush t = true ∧ i ∈ ((cfg2.win 7).blk t).view.set := by
  have ht : (i 0).val / 2000 < cfg2.N := (Nat.div_lt_of_lt_mul (n := 2000) (k := 25) (i 0).isLt).trans_eq N_2.symm
  refine ⟨⟨⟨_, ht⟩, flush2_6 _, ?_⟩, ⟨⟨_, ht⟩, flush2_7 _, ?_⟩⟩
  · show i ∈ ((View.whole main_v32_0).slice (win2_6.rect ⟨_, ht⟩)).set
    rw [View.set_slice_whole]
    exact mem_row_block (by decide) i _ (idx_rows2 _).2.2.1 _
  · show i ∈ ((View.whole main_v32_1).slice (win2_7.rect ⟨_, ht⟩)).set
    rw [View.set_slice_whole]
    exact mem_row_block (by decide) i _ (idx_rows2 _).2.2.2 _

theorem val2_6 (c : Dev nD) :
    Spec.ofIdx2 (a := 50000) (b := 64) ((dat2 (F := Ideal) V c).arrAt 6 cfg2.N)
      = Spec.relu (Spec.addB (Spec.mm (Spec.relu (Spec.addB (Spec.mm (Spec.add (Spec.ofIdx2 (a := 50000) (b := 64) (V c main_v18_0)) (Spec.ofIdx2 (a := 50000) (b := 64) (V c main_v29))) (Spec.ofIdx2 (a := 64) (b := 64) (V c main_arg7))) (Spec.ofIdx2Row (b := 64) (V c main_v30)))) (Spec.ofIdx2 (a := 64) (b := 64) (V c main_arg9))) (Spec.ofIdx2Row (b := 64) (V c main_v31))) := by
  rw [(dat2 (F := Ideal) V c).arrAt_eq_of_cover 6 (fun i => G2 V c (i 0) (i 1)) (fun t _ =>
    funext fun j => (blockval2 V c t j _ _ (idx_rows2 t).2.2.1 (win2_6.rect_emb_val t j)).1) fun i => (covered2 i).1]
  rfl

theorem val2_7 (c : Dev nD) :
    Spec.ofIdx2 (a := 50000) (b := 64) ((dat2 (F := Ideal) V c).arrAt 7 cfg2.N)
      = Spec.relu (Spec.addB (Spec.mm (Spec.relu (Spec.addB (Spec.mm (Spec.add (Spec.ofIdx2 (a := 50000) (b := 64) (V c main_v18_0)) (Spec.ofIdx2 (a := 50000) (b := 64) (V c main_v29))) (Spec.ofIdx2 (a := 64) (b := 64) (V c main_arg7))) (Spec.ofIdx2Row (b := 64) (V c main_v30)))) (Spec.ofIdx2 (a := 64) (b := 64) (V c main_arg9))) (Spec.ofIdx2Row (b := 64) (V c main_v31))) := by
  rw [(dat2 (F := Ideal) V c).arrAt_eq_of_cover 7 (fun i => G2 V c (i 0) (i 1)) (fun t _ =>
    funext fun j => (blockval2 V c t j _ _ (idx_rows2 t).2.2.2 (win2_7.rect_emb_val t j)).2) fun i => (covered2 i).2]
  rfl

end Value
end Cert.KernelIdeal.Hand

end
-- ==== Proof.KernelIdeal.Val3.lean ====
import proofs.«410414_j13597866459249_2_alg».proof.Proof.KernelIdeal.Reg3
import proofs.«410414_j13597866459249_2_alg».proof.Proof.Spec
import proofs.«410414_j13597866459249_2_alg».proof.Proof.KernelIdeal.Rows
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

section Value

open Idealize.ShloMosaic.ValueIdx

variable (V : (c : Dev nD) → (b : Ref sig .tc) → Buf (Elt Ideal) ((c : Thread nD τ).loc b))

theorem idx_rows3 : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_6.index t (0 : Fin 2) = t.val ∧ win3_6.index t (1 : Fin 2) = 0)
    ∧ (win3_7.index t (0 : Fin 2) = t.val ∧ win3_7.index t (1 : Fin 2) = 0) :=
  (by decide +kernel : ∀ t : Fin grid3.N, _)

theorem pay3_apply (x0 x1 : Vec Ideal S2000x64 .f32) (x2 : Vec Ideal S64x64 .f32) (x3 : Vec Ideal S1x64 .f32)
    (x4 : Vec Ideal S64x64 .f32) (x5 : Vec Ideal S1x64 .f32) (p : Fin 2000) (q : Fin 64) :
    k3_pay1 (F := Ideal) x0 x1 x2 x3 x4 x5 (ix2 p q)
      = max ((∑ k : Fin 64, max ((∑ k' : Fin 64, (x0 (ix2 p k') + x1 (ix2 p k')) * x2 (ix2 k' k)) + x3 (ix2 (0 : Fin 1) k)) 0 * x4 (ix2 k q))
          + x5 (ix2 (0 : Fin 1) q)) 0 := by
  unfold k3_pay1
  simp only [matmul, shapeCast_self, maximumf_apply, addf_apply, broadcast_apply, truncf_apply, broadcastTo_1b_ab_apply,
    mm_apply dot_S2000x64_S64x64_S2000x64_1_0_0_1_n_n rfl, Ideal.ofBits_def, Ideal.ofBits_zero_f32]

noncomputable def G3 (c : Dev nD) : Spec.Mat 50000 64 :=
  Spec.relu (Spec.addB (Spec.mm (Spec.relu (Spec.addB (Spec.mm (Spec.add (Spec.ofIdx2 (a := 50000) (b := 64) (V c main_v32_0)) (Spec.ofIdx2 (a := 50000) (b := 64) (V c main_v43))) (Spec.ofIdx2 (a := 64) (b := 64) (V c main_arg11))) (Spec.ofIdx2Row (b := 64) (V c main_v44)))) (Spec.ofIdx2 (a := 64) (b := 64) (V c main_arg13))) (Spec.ofIdx2Row (b := 64) (V c main_v45)))

/-- Entry `j` of either block computed at point `t` is the layer's entry at row `t * 2000 + j 0`, column `j 1`: the layer acts row by row. -/
theorem blockval3 (c : Dev nD) (t : Fin cfg3.N) (j : S2000x64.Idx) (i : S50000x64.Idx) (idx : Fin 2 → ℕ)
    (h : idx 0 = t.val ∧ idx 1 = 0) (hi : ∀ a, (i a).val = idx a * S2000x64.size a + (j a).val) :
    (dat3 (F := Ideal) V c).after 6 t j = G3 V c (i 0) (i 1) ∧ (dat3 (F := Ideal) V c).after 7 t j = G3 V c (i 0) (i 1) := by
  rw [after3_6, after3_7, out3_6, out3_7, View.canon_unit_zero zero_off, View.canon_unit_zero zero_off]
  simp only [View.ld_unit_zero (S := S2000x64) zero_off, View.ld_unit_zero (S := S64x64) zero_off, View.ld_unit_zero (S := S1x64) zero_off]
  obtain ⟨r0, r1, -⟩ := idx_rows3 t
  obtain ⟨p, q, rfl⟩ : ∃ (p : Fin 2000) (q : Fin 64), j = ix2 p q := ⟨j 0, j 1, eq_ix2 j⟩
  obtain ⟨hi0, hi1⟩ := row_block_emb idx h (hi 0) (hi 1)
  have e0 : ∀ k, iblk3 V c 0 t (ix2 p k) = V c main_v32_0 (ix2 (i 0) k) := fun k =>
    read_row_block (V c main_v32_0) _ _ r0 (win3_0.rect_emb_val t) p k _ hi0
  have e1 : ∀ k, iblk3 V c 1 t (ix2 p k) = V c main_v43 (ix2 (i 0) k) := fun k =>
    read_row_block (V c main_v43) _ _ r1 (win3_1.rect_emb_val t) p k _ hi0
  have h2 : iblk3 V c 2 t = V c main_arg11 := read_whole_block (V c main_arg11) _ _ (Fin.forall_fin_two.2 ⟨rfl, rfl⟩) (win3_2.rect_emb_val t)
  have h3 : iblk3 V c 3 t = V c main_v44 := read_whole_block (V c main_v44) _ _ (Fin.forall_fin_two.2 ⟨rfl, rfl⟩) (win3_3.rect_emb_val t)
  have h4 : iblk3 V c 4 t = V c main_arg13 := read_whole_block (V c main_arg13) _ _ (Fin.forall_fin_two.2 ⟨rfl, rfl⟩) (win3_4.rect_emb_val t)
  have h5 : iblk3 V c 5 t = V c main_v45 := read_whole_block (V c main_v45) _ _ (Fin.forall_fin_two.2 ⟨rfl, rfl⟩) (win3_5.rect_emb_val t)
  refine (fun hh => ⟨hh, hh⟩) ?_
  rw [pay3_apply]
  simp only [e0, e1, h2, h3, h4, h5]
  exact congrArg (fun q' : Fin 64 => G3 V c (i 0) q') (Fin.ext hi1.symm)

theorem covered3 (i : S50000x64.Idx) :
    (∃ t : Fin cfg3.N, (cfg3.win 6).flush t = true ∧ i ∈ ((cfg3.win 6).blk t).view.set)
      ∧ ∃ t : Fin cfg3.N, (cfg3.win 7).flush t = true ∧ i ∈ ((cfg3.win 7).blk t).view.set := by
  have ht : (i 0).val / 2000 < cfg3.N := (Nat.div_lt_of_lt_mul (n := 2000) (k := 25) (i 0).isLt).trans_eq N_3.symm
  refine ⟨⟨⟨_, ht⟩, flush3_6 _, ?_⟩, ⟨⟨_, ht⟩, flush3_7 _, ?_⟩⟩
  · show i ∈ ((View.whole main_v46_0).slice (win3_6.rect ⟨_, ht⟩)).set
    rw [View.set_slice_whole]
    exact mem_row_block (by decide) i _ (idx_rows3 _).2.2.1 _
  · show i ∈ ((View.whole main_v46_1).slice (win3_7.rect ⟨_, ht⟩)).set
    rw [View.set_slice_whole]
    exact mem_row_block (by decide) i _ (idx_rows3 _).2.2.2 _

theorem val3_6 (c : Dev nD) :
    Spec.ofIdx2 (a := 50000) (b := 64) ((dat3 (F := Ideal) V c).arrAt 6 cfg3.N)
      = Spec.relu (Spec.addB (Spec.mm (Spec.relu (Spec.addB (Spec.mm (Spec.add (Spec.ofIdx2 (a := 50000) (b := 64) (V c main_v32_0)) (Spec.ofIdx2 (a := 50000) (b := 64) (V c main_v43))) (Spec.ofIdx2 (a := 64) (b := 64) (V c main_arg11))) (Spec.ofIdx2Row (b := 64) (V c main_v44)))) (Spec.ofIdx2 (a := 64) (b := 64) (V c main_arg13))) (Spec.ofIdx2Row (b := 64) (V c main_v45))) := by
  rw [(dat3 (F := Ideal) V c).arrAt_eq_of_cover 6 (fun i => G3 V c (i 0) (i 1)) (fun t _ =>
    funext fun j => (blockval3 V c t j _ _ (idx_rows3 t).2.2.1 (win3_6.rect_emb_val t j)).1) fun i => (covered3 i).1]
  rfl

theorem val3_7 (c : Dev nD) :
    Spec.ofIdx2 (a := 50000) (b := 64) ((dat3 (F := Ideal) V c).arrAt 7 cfg3.N)
      = Spec.relu (Spec.addB (Spec.mm (Spec.relu (Spec.addB (Spec.mm (Spec.add (Spec.ofIdx2 (a := 50000) (b := 64) (V c main_v32_0)) (Spec.ofIdx2 (a := 50000) (b := 64) (V c main_v43))) (Spec.ofIdx2 (a := 64) (b := 64) (V c main_arg11))) (Spec.ofIdx2Row (b := 64) (V c main_v44)))) (Spec.ofIdx2 (a := 64) (b := 64) (V c main_arg13))) (Spec.ofIdx2Row (b := 64) (V c main_v45))) := by
  rw [(dat3 (F := Ideal) V c).arrAt_eq_of_cover 7 (fun i => G3 V c (i 0) (i 1)) (fun t _ =>
    funext fun j => (blockval3 V c t j _ _ (idx_rows3 t).2.2.2 (win3_7.rect_emb_val t j)).2) fun i => (covered3 i).2]
  rfl

end Value
end Cert.KernelIdeal.Hand

end
-- ==== Proof.KernelIdeal.Val4.lean ====
import proofs.«410414_j13597866459249_2_alg».proof.Proof.Gen.KernelIdeal.Skeleton
import proofs.«410414_j13597866459249_2_alg».proof.Proof.Spec
import proofs.«410414_j13597866459249_2_alg».proof.Proof.KernelIdeal.Reg4
import proofs.«410414_j13597866459249_2_alg».proof.Proof.KernelIdeal.Rows
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KernelIdeal.Hand

open Idealize.ShloMosaic Idealize.ShloMosaic.TcCoe Idealize.ShloMosaic.ValueIdx Cert.KernelIdeal Cert.KernelIdeal.Gen Cert.Spec
open Idealize.SL Idealize.SL.Sem
open scoped BigOperators

section Out

open Idealize.ShloMosaic.Pipeline (Dat)

variable {F : FTy → Type} [FloatOps F]

variable (V : (c : Dev nD) → (b : Ref sig .tc) → Buf (Elt F) ((c : Thread nD τ).loc b))

noncomputable abbrev tL4 : Fin cfg4.N := ⟨24, by decide⟩

/-- At the last point the output block sits at offset zero in its array: an index keeps its coordinates. -/
theorem emb4_18 (y : S512x24.Idx) : ((cfg4.win 18).blk tL4).view.emb y = y :=
  funext fun a => Fin.ext ((cfg4.win 18).rect_emb_val_of_index_zero tL4 a
    ((by decide +kernel : ∀ a : Fin 2, (cfg4.win 18).index tL4 a = 0) a) y)

theorem arrAt4_18 (c : Dev nD) :
    (dat4 V c).arrAt 18 cfg4.N = (out4 V c ⟨24, by decide⟩ : Buf (Elt F) ((cfg4.win 18).arr.view.loc (c.tc : Thread nD τ))) :=
  (dat4 V c).arrAt_eq_of_cover 18 _ (fun t ht => by
      obtain rfl : t = tL4 :=
        Fin.ext ((Nat.mod_eq_of_lt (lt_of_lt_of_eq t.isLt (show cfg4.N = 25 from N_4))).symm.trans ((flush4_18 t).mp ht))
      rw [Dat.flushed, after4_18]
      exact funext fun y => (congrArg (out4 V c tL4) (emb4_18 y)).symm)
    fun i => ⟨tL4, (flush4_18 _).mpr rfl, by rw [← emb4_18 i]; exact View.emb_mem_set _ _⟩

end Out

/-- A product contracting the ROWS of both factors, into a zero accumulator, read at an index, is the sum over the rows. -/
theorem mm_rows_apply {M K N : ℕ} {φ₁ φ₂ : FTy} (d : DotDims ⟨2, ![K, M]⟩ ⟨2, ![K, N]⟩ ⟨2, ![M, N]⟩)
    (w : DotDims.WF ⟨2, ![K, M]⟩ ⟨2, ![K, N]⟩ ⟨2, ![M, N]⟩ [0] [0] [1] [1] [] []) (hd : d = ⟨[0], [0], [1], [1], [], [], w⟩)
    (A : FVec Ideal ⟨2, ![K, M]⟩ φ₁) (B : FVec Ideal ⟨2, ![K, N]⟩ φ₂) (a : Fin M) (b : Fin N) :
    matmul d none A B (constant ⟨2, ![M, N]⟩ .f32 0x00000000#32) (ix2 a b) = ∑ c : Fin K, A (ix2 c a) * B (ix2 c b) := by
  subst hd
  show FloatOps.matmul _ none A B _ (ix2 a b) = _
  rw [Ideal.matmul_constant_zero_apply, ← Equiv.sum_comp (contrEquiv1 _ K rfl rfl).symm]
  refine Finset.sum_congr rfl fun c _ => ?_
  have c2 := contrEquiv1_symm_val
    (⟨[0], [0], [1], [1], [], [], w⟩ : DotDims ⟨2, ![K, M]⟩ ⟨2, ![K, N]⟩ ⟨2, ![M, N]⟩) K rfl rfl c
  rw [show DotDims.lhsIdx _ (ix2 a b) ((contrEquiv1 _ K rfl rfl).symm c) = ix2 c a from
      Shape.idx_ext₂ (by simp [DotDims.lhsIdx]; exact c2) (by simp [DotDims.lhsIdx]; rfl),
    show DotDims.rhsIdx _ (ix2 a b) ((contrEquiv1 _ K rfl rfl).symm c) = ix2 c b from
      Shape.idx_ext₂ (by simp [DotDims.rhsIdx]; exact c2) (by simp [DotDims.rhsIdx]; rfl)]

theorem pay5 (h0 : Vec Ideal S2000x64 .f32) (w0 : Vec Ideal S64x64 .f32) (h1 : Vec Ideal S2000x64 .f32) (w1 : Vec Ideal S64x64 .f32)
    (h2 : Vec Ideal S2000x64 .f32) (w2 : Vec Ideal S64x64 .f32) (jb : Vec Ideal S1x64 .f32) (r : Fin 2000) (j : Fin 64) :
    k4_pay5 (F := Ideal) h0 w0 h1 w1 h2 w2 jb (ix2 r j)
      = ((∑ k : Fin 64, h0 (ix2 r k) * w0 (ix2 k j)) + (∑ k : Fin 64, h1 (ix2 r k) * w1 (ix2 k j))
          + (∑ k : Fin 64, h2 (ix2 r k) * w2 (ix2 k j))) + jb (ix2 0 j) := by
  unfold k4_pay5
  simp only [matmul, shapeCast_self, addf_apply, mm_apply dot_S2000x64_S64x64_S2000x64_1_0_0_1_n_n rfl, broadcastTo_1b_ab_apply] <;> rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem setWidth_ofBool_beq (x y : BitVec 32) :
    BitVec.setWidth 32 (BitVec.ofBool (x == y)) = if x = y then 1#32 else 0#32 := by
  by_cases h : x = y
  · subst h; simp
  · have hb : (x == y) = false := beq_eq_false_iff_ne.mpr h
    rw [if_neg h, hb]; rfl

theorem pay6 (b : Vec Ideal S2000x1 .i32) (r : Fin 2000) (s : Fin 512) :
    k4_pay6 (F := Ideal) b (ix2 r s) = if b (ix2 r 0) = BitVec.ofNat 32 s.val then 1#32 else 0#32 := by
  unfold k4_pay6
  simp only [shapeCast_self, extui_apply]
  show BitVec.setWidth 32 (IntOp.cmpi .eq (broadcastTo S2000x512 b broadcasts_S2000x1_S2000x512 (ix2 r s))
      (broadcastTo S2000x512 (iota Kind.tc S1x512 32 [1] iota_S1x512_d1_w32) broadcasts_S1x512_S2000x512 (ix2 r s))) = _
  rw [broadcastTo_a1_ab_apply, broadcastTo_1b_ab_apply]
  show BitVec.setWidth 32 (BitVec.ofBool (b (ix2 r 0) == BitVec.ofNat 32 (0 * 512 + s.val))) = _
  rw [Nat.zero_mul, Nat.zero_add]
  exact setWidth_ofBool_beq _ _

theorem pay4 (s : Fin 512) (j : Fin 64) : (k4_pay4 (F := Ideal)) (ix2 s j) = 0 := by
  unfold k4_pay4
  simp only [shapeCast_self]
  exact Ideal.ofBits_zero_f32

theorem pay1 (hjk : FVec Ideal S2000x64 .f32) (b : Vec Ideal S2000x1 .i32) (acc : Vec Ideal S512x64 .f32) (s : Fin 512) (j : Fin 64) :
    k4_pay1 (F := Ideal) hjk (k4_pay6 (F := Ideal) b) acc (ix2 s j)
      = acc (ix2 s j) + ∑ r : Fin 2000, (if b (ix2 r 0) = BitVec.ofNat 32 s.val then (1 : EReal) else 0) * hjk (ix2 r j) := by
  unfold k4_pay1
  simp only [shapeCast_self, addf_apply]
  rw [mm_rows_apply dot_S2000x512_S2000x64_S512x64_0_0_1_1_n_n _ rfl]
  refine congrArg (acc (ix2 s j) + ·) (Finset.sum_congr rfl fun r _ => ?_)
  refine congrArg (· * hjk (ix2 r j)) ?_
  show (((k4_pay6 (F := Ideal) b (ix2 r s)).toInt : ℝ) : EReal) = _
  rw [pay6]
  by_cases h : b (ix2 r 0) = BitVec.ofNat 32 s.val
  · rw [if_pos h, if_pos h]; norm_num
  · rw [if_neg h, if_neg h]; norm_num

noncomputable def eps4 : EReal := Ideal.ofBits .f32 0x3727C5AC#32

theorem pay32 (g : Vec Ideal S512x64 .f32) (fw1 : Vec Ideal S64x64 .f32) (fb1 bm bv bg bb : Vec Ideal S1x64 .f32)
    (fw2 : Vec Ideal S64x64 .f32) (fb2 : Vec Ideal S1x64 .f32) (ow : Vec Ideal S64x24 .f32) (ob : Vec Ideal S1x24 .f32) :
    ofIdx2 (k4_pay2 (F := Ideal) (k4_pay3 (F := Ideal) g fw1 fb1 bm bv bg bb fw2 fb2) ow ob)
      = Spec.head eps4 (ofIdx2 fw1) (ofIdx2Row fb1) (ofIdx2Row bg) (ofIdx2Row bb) (ofIdx2Row bm) (ofIdx2Row bv)
          (ofIdx2 fw2) (ofIdx2Row fb2) (ofIdx2 ow) (ofIdx2Row ob) (ofIdx2 g) := by
  funext s j
  unfold k4_pay2 k4_pay3 Spec.head Spec.addB Spec.mm Spec.relu
  simp only [shapeCast_self, addf_apply, subf_apply, mulf_apply, maximumf_apply, truncf_apply, matmul,
    mm_apply dot_S512x64_S64x24_S512x24_1_0_0_1_n_n rfl, mm_apply dot_S512x64_S64x64_S512x64_1_0_0_1_n_n rfl,
    broadcastTo_1b_ab_apply, broadcast_apply]
  simp only [Ideal.ofBits_def, Ideal.ofBits_zero_f32]
  rfl

theorem fold_sum {M : Type} [AddCommMonoid M] (N : ℕ) (a : (n : ℕ) → n < N → M) (g : Fin N → M)
    (h0 : ∀ h : 0 < N, a 0 h = g ⟨0, h⟩)
    (hs : ∀ (n : ℕ) (h : n + 1 < N), a (n + 1) h = a n (Nat.lt_of_succ_lt h) + g ⟨n + 1, h⟩) :
    ∀ (n : ℕ) (h : n < N), a n h = ∑ t : Fin (n + 1), g ⟨t.val, lt_of_lt_of_le t.isLt h⟩ := by
  intro n
  induction n with
  | zero =>
    intro h
    rw [h0 h, Fin.sum_univ_one]
    rfl
  | succ n ih =>
    intro h
    rw [hs n h, ih (Nat.lt_of_succ_lt h), Fin.sum_univ_castSucc (n := n + 1)]
    rfl

noncomputable def row (t : Fin 25) (r : Fin 2000) : Fin 50000 := ⟨t.val * 2000 + r.val, by have := t.isLt; have := r.isLt; omega⟩

theorem sum_rows {M : Type} [AddCommMonoid M] (f : Fin 50000 → M) :
    ∑ n : Fin 50000, f n = ∑ t : Fin 25, ∑ r : Fin 2000, f (row t r) := by
  rw [← Fintype.sum_prod_type' (f := fun t r => f (row t r))]
  rw [← Equiv.sum_comp (finProdFinEquiv (m := 25) (n := 2000)) f]
  refine Finset.sum_congr rfl fun p _ => congrArg f (Fin.ext ?_)
  show p.2.val + 2000 * p.1.val = p.1.val * 2000 + p.2.val
  omega

section Assembly

variable (V : (c : Dev nD) → (b : Ref sig .tc) → Buf (Elt Ideal) ((c : Thread nD τ).loc b))

theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0) :=
  (by decide +kernel : ∀ t : Fin grid4.N, _)

noncomputable def oh4 (c : Dev nD) : Fin 50000 → Fin 512 → EReal :=
  fun n s => if (V c main_v58 : S50000x1.Idx → BitVec 32) (ix2 n 0) = BitVec.ofNat 32 s.val then 1 else 0

noncomputable def mix4 (c : Dev nD) : Mat 50000 64 :=
  Spec.addB (Spec.add (Spec.add (Spec.mm (ofIdx2 (V c main_v18_0 : S50000x64.Idx → EReal)) (ofIdx2 (V c main_v47 : S64x64.Idx → EReal)))
      (Spec.mm (ofIdx2 (V c main_v32_0 : S50000x64.Idx → EReal)) (ofIdx2 (V c main_v48 : S64x64.Idx → EReal))))
      (Spec.mm (ofIdx2 (V c main_v46_0 : S50000x64.Idx → EReal)) (ofIdx2 (V c main_v49 : S64x64.Idx → EReal))))
    (ofIdx2Row (V c main_v50 : S1x64.Idx → EReal))

/-- Each of these windows' block is its whole array, so the block read is the array. -/
theorem whole4_a (c : Dev nD) (t : Fin cfg4.N) :
    iblk4 V c 4 t = V c main_v47
      ∧ iblk4 V c 5 t = V c main_v48
      ∧ iblk4 V c 6 t = V c main_v49
      ∧ iblk4 V c 7 t = V c main_v50 :=
  ⟨read_whole_block (V c main_v47) _ _ (Fin.forall_fin_two.2 ⟨rfl, rfl⟩) (win4_4.rect_emb_val t),
    read_whole_block (V c main_v48) _ _ (Fin.forall_fin_two.2 ⟨rfl, rfl⟩) (win4_5.rect_emb_val t),
    read_whole_block (V c main_v49) _ _ (Fin.forall_fin_two.2 ⟨rfl, rfl⟩) (win4_6.rect_emb_val t),
    read_whole_block (V c main_v50) _ _ (Fin.forall_fin_two.2 ⟨rfl, rfl⟩) (win4_7.rect_emb_val t)⟩

theorem whole4_b (c : Dev nD) (t : Fin cfg4.N) :
    iblk4 V c 8 t = V c main_arg17
      ∧ iblk4 V c 9 t = V c main_v51
      ∧ iblk4 V c 10 t = V c main_v52
      ∧ iblk4 V c 11 t = V c main_v53
      ∧ iblk4 V c 12 t = V c main_v54 :=
  ⟨read_whole_block (V c main_arg17) _ _ (Fin.forall_fin_two.2 ⟨rfl, rfl⟩) (win4_8.rect_emb_val t),
    read_whole_block (V c main_v51) _ _ (Fin.forall_fin_two.2 ⟨rfl, rfl⟩) (win4_9.rect_emb_val t),
    read_whole_block (V c main_v52) _ _ (Fin.forall_fin_two.2 ⟨rfl, rfl⟩) (win4_10.rect_emb_val t),
    read_whole_block (V c main_v53) _ _ (Fin.forall_fin_two.2 ⟨rfl, rfl⟩) (win4_11.rect_emb_val t),
    read_whole_block (V c main_v54) _ _ (Fin.forall_fin_two.2 ⟨rfl, rfl⟩) (win4_12.rect_emb_val t)⟩

theorem whole4_c (c : Dev nD) (t : Fin cfg4.N) :
    iblk4 V c 13 t = V c main_v55
      ∧ iblk4 V c 14 t = V c main_arg23
      ∧ iblk4 V c 15 t = V c main_v56
      ∧ iblk4 V c 16 t = V c main_arg25
      ∧ iblk4 V c 17 t = V c main_v57 :=
  ⟨read_whole_block (V c main_v55) _ _ (Fin.forall_fin_two.2 ⟨rfl, rfl⟩) (win4_13.rect_emb_val t),
    read_whole_block (V c main_arg23) _ _ (Fin.forall_fin_two.2 ⟨rfl, rfl⟩) (win4_14.rect_emb_val t),
    read_whole_block (V c main_v56) _ _ (Fin.forall_fin_two.2 ⟨rfl, rfl⟩) (win4_15.rect_emb_val t),
    read_whole_block (V c main_arg25) _ _ (Fin.forall_fin_two.2 ⟨rfl, rfl⟩) (win4_16.rect_emb_val t),
    read_whole_block (V c main_v57) _ _ (Fin.forall_fin_two.2 ⟨rfl, rfl⟩) (win4_17.rect_emb_val t)⟩

theorem step4_apply (c : Dev nD) (t : Fin cfg4.N) (x : Vec Ideal S512x64 .f32) (s : Fin 512) (j : Fin 64) :
    step4 V c t x (ix2 s j)
      = x (ix2 s j) + ∑ r : Fin 2000, oh4 V c (row ⟨t.val, t.isLt⟩ r) s * mix4 V c (row ⟨t.val, t.isLt⟩ r) j := by
  obtain ⟨i0, i1, i2, i3⟩ := idx4 t
  obtain ⟨w4, w5, w6, w7⟩ := whole4_a V c t
  unfold step4
  refine (pay1 (k4_pay5 (F := Ideal) (iblk4 V c 0 t) (iblk4 V c 4 t) (iblk4 V c 1 t) (iblk4 V c 5 t) (iblk4 V c 2 t) (iblk4 V c 6 t) (iblk4 V c 7 t))
    (iblk4 V c 3 t) x s j).trans ?_
  refine congrArg (x (ix2 s j) + ·) (Finset.sum_congr rfl fun r _ => ?_)
  refine congrArg₂ (· * ·) ?_ ((pay5 (iblk4 V c 0 t) (iblk4 V c 4 t) (iblk4 V c 1 t) (iblk4 V c 5 t) (iblk4 V c 2 t) (iblk4 V c 6 t) (iblk4 V c 7 t) r j).trans ?_)
  · show (if (iblk4 V c 3 t : Vec Ideal S2000x1 .i32) (ix2 r 0) = BitVec.ofNat 32 s.val then (1 : EReal) else 0) = _
    rw [show (iblk4 V c 3 t : Vec Ideal S2000x1 .i32) (ix2 r 0) = (V c main_v58 : S50000x1.Idx → BitVec 32) (ix2 (row ⟨t.val, t.isLt⟩ r) 0) from
      read_row_block (V c main_v58 : S50000x1.Idx → BitVec 32) _ _ i3 (win4_3.rect_emb_val t) r 0 _ rfl]
    rfl
  · refine congrArg₂ (· + ·) (congrArg₂ (· + ·) (congrArg₂ (· + ·) ?_ ?_) ?_) ?_
    · exact Finset.sum_congr rfl fun k _ => congrArg₂ (· * ·)
        (read_row_block (V c main_v18_0 : S50000x64.Idx → EReal) _ _ i0 (win4_0.rect_emb_val t) r k _ rfl) (congrFun w4 (ix2 k j))
    · exact Finset.sum_congr rfl fun k _ => congrArg₂ (· * ·)
        (read_row_block (V c main_v32_0 : S50000x64.Idx → EReal) _ _ i1 (win4_1.rect_emb_val t) r k _ rfl) (congrFun w5 (ix2 k j))
    · exact Finset.sum_congr rfl fun k _ => congrArg₂ (· * ·)
        (read_row_block (V c main_v46_0 : S50000x64.Idx → EReal) _ _ i2 (win4_2.rect_emb_val t) r k _ rfl) (congrFun w6 (ix2 k j))
    · exact congrFun w7 (ix2 0 j)

theorem acc4_last (c : Dev nD) (h : 24 < cfg4.N) :
    ofIdx2 (acc4 V c 24 h) = Spec.poolK (oh4 V c) (mix4 V c) := by
  funext s j
  have hf := fold_sum cfg4.N (fun n hn => acc4 V c n hn (ix2 s j))
    (fun t => ∑ r : Fin 2000, oh4 V c (row ⟨t.val, t.isLt⟩ r) s * mix4 V c (row ⟨t.val, t.isLt⟩ r) j)
    (fun h0 => by
      show acc4 V c 0 h0 (ix2 s j) = _
      rw [acc4_zero, step4_apply, pay4, zero_add])
    (fun n hn => by
      show acc4 V c (n + 1) hn (ix2 s j) = acc4 V c n _ (ix2 s j) + _
      rw [acc4_succ, step4_apply])
    24 h
  show acc4 V c 24 h (ix2 s j) = _
  refine hf.trans ?_
  unfold Spec.poolK
  rw [sum_rows]

theorem val4 (c : Dev nD) :
    Spec.ofIdx2 ((dat4 (F := Ideal) V c).arrAt 18 cfg4.N)
      = Spec.head eps4 (ofIdx2 (V c main_arg17 : S64x64.Idx → EReal)) (ofIdx2Row (V c main_v51 : S1x64.Idx → EReal))
          (ofIdx2Row (V c main_v52 : S1x64.Idx → EReal)) (ofIdx2Row (V c main_v53 : S1x64.Idx → EReal))
          (ofIdx2Row (V c main_v54 : S1x64.Idx → EReal)) (ofIdx2Row (V c main_v55 : S1x64.Idx → EReal))
          (ofIdx2 (V c main_arg23 : S64x64.Idx → EReal)) (ofIdx2Row (V c main_v56 : S1x64.Idx → EReal))
          (ofIdx2 (V c main_arg25 : S64x24.Idx → EReal)) (ofIdx2Row (V c main_v57 : S1x24.Idx → EReal))
          (Spec.poolK (fun n s => if (V c main_v58 : S50000x1.Idx → BitVec 32) (ix2 n 0) = BitVec.ofNat 32 s.val then 1 else 0)
            (Spec.addB (Spec.add (Spec.add
                (Spec.mm (ofIdx2 (V c main_v18_0 : S50000x64.Idx → EReal)) (ofIdx2 (V c main_v47 : S64x64.Idx → EReal)))
                (Spec.mm (ofIdx2 (V c main_v32_0 : S50000x64.Idx → EReal)) (ofIdx2 (V c main_v48 : S64x64.Idx → EReal))))
                (Spec.mm (ofIdx2 (V c main_v46_0 : S50000x64.Idx → EReal)) (ofIdx2 (V c main_v49 : S64x64.Idx → EReal))))
              (ofIdx2Row (V c main_v50 : S1x64.Idx → EReal)))) := by
  rw [arrAt4_18]
  unfold out4
  obtain ⟨w8, w9, w10, w11, w12⟩ := whole4_b V c tL4
  obtain ⟨w13, w14, w15, w16, w17⟩ := whole4_c V c tL4
  simp only [w8, w9, w10, w11, w12, w13, w14, w15, w16, w17]
  refine (pay32 _ _ _ _ _ _ _ _ _ _ _).trans ?_
  rw [acc4_last V c (by decide)]
  rfl

end Assembly

end Cert.KernelIdeal.Hand

end
-- ==== Proof.EdgeOps.lean ====
import proofs.«410414_j13597866459249_2_alg».proof.Proof.Spec
import Idealize.ShloMosaic.PureOps.Ideal
import Idealize.ShloMosaic.PureOps.Ideal.Laws
import Idealize.ShloMosaic.PureOps.Dims
import Idealize.ShloMosaic.PureOps.ShapeOps
import Idealize.ShloMosaic.Lib.ValueIdx
import Idealize.ShloMosaic.Lib.StableHlo.Predicate
import Idealize.ShloMosaic.Lib.ValueLayout

noncomputable section

namespace Cert.Edge

open Idealize.ShloMosaic Idealize.ShloMosaic.ValueIdx Cert.Spec

noncomputable def srcWord (E : (⟨2, ![2, 800000]⟩ : Shape).Idx → BitVec 32) (e : Fin 800000) : BitVec 32 :=
  Scalar.select (IntOp.cmpi .slt (E (ix2 0 e)) 0#32) (IntOp.addi (E (ix2 0 e)) 50000#32) (E (ix2 0 e))

noncomputable def srcRow (E : (⟨2, ![2, 800000]⟩ : Shape).Idx → BitVec 32) : Fin 800000 → Fin 50000 :=
  fun e => ⟨min (srcWord E e).toInt.toNat (50000 - 1), by omega⟩

noncomputable def land (N : ℕ) {w : ℕ} (x : BitVec w) : Option (Fin N) :=
  if h : 0 ≤ x.toInt ∧ x.toInt < N then some ⟨x.toInt.toNat, by omega⟩ else none

noncomputable def dstLand (E : (⟨2, ![2, 800000]⟩ : Shape).Idx → BitVec 32) : Fin 800000 → Option (Fin 50000) :=
  fun e => land 50000 (E (ix2 1 e))

noncomputable def graphLand (B : (⟨1, ![50000]⟩ : Shape).Idx → BitVec 32) : Fin 50000 → Option (Fin 512) :=
  fun n => land 512 (B (ix1 n))

theorem ix2_inj {n0 n1 : ℕ} {a a' : Fin n0} {b b' : Fin n1} : ix2 a b = ix2 a' b' ↔ a = a' ∧ b = b' :=
  ⟨fun h => ⟨congrFun h 0, congrFun h 1⟩, fun ⟨h1, h2⟩ => by rw [h1, h2]⟩

theorem bcastCol_apply {α : Type} {n : ℕ} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

theorem gatherRows_apply {α : Type} {N M D w : ℕ} (dG : GatherDims ⟨2, ![N, D]⟩ ⟨2, ![M, 1]⟩ ⟨2, ![M, D]⟩)
    (hoff : dG.offsetDims = [1]) (hcoll : dG.collapsedSliceDims = [0]) (hob : dG.operandBatchingDims = [])
    (hsim : dG.startIndexMap = [0]) (hivd : dG.indexVectorDim = 1) (hN : 0 < N)
    (H : (⟨2, ![N, D]⟩ : Shape).Idx → α) (idx : IVec ⟨2, ![M, 1]⟩ w) (e : Fin M) (k : Fin D) :
    Host.gather dG H idx (ix2 e k) = H (ix2 ⟨min (idx (ix2 e 0)).toInt.toNat (N - 1), by omega⟩ k) := by
  obtain ⟨od, cd, ob, sb, sm, iv, ss, wf⟩ := dG
  dsimp only at hoff hcoll hob hsim hivd
  subst hoff hcoll hob hsim hivd
  unfold Host.gather
  refine congrArg H (funext fun a => Fin.ext ?_)
  generalize hd : (⟨[1], [0], [], sb, [0], 1, ss, wf⟩ : GatherDims ⟨2, ![N, D]⟩ ⟨2, ![M, 1]⟩ ⟨2, ![M, D]⟩) = d
  have hsl : d.sliceSizes 0 = 1 := d.slice_collapsed 0 (by subst hd; exact List.mem_singleton.mpr rfl)
  subst hd
  match a with
  | ⟨0, _⟩ =>

    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl), hsl]
    refine congrArg (fun i => min (idx i).toInt.toNat (N - 1)) ?_
    funext b
    refine Fin.ext ?_
    match b with
    | ⟨0, _⟩ => rfl
    | ⟨1, _⟩ => rfl
  | ⟨1, _⟩ =>

    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start
    rw [dif_neg (show ¬ (1 : Fin 2) ∈ [(0 : Fin 2)] by decide)]
    simp only [Nat.add_zero, Nat.zero_add]
    rfl

theorem scatterRows_resultIdx {N M D w : ℕ} (dS : ScatterDims ⟨2, ![N, D]⟩ ⟨2, ![M, 1]⟩ ⟨2, ![M, D]⟩)
    (huw : dS.updateWindowDims = [1]) (hiw : dS.insertedWindowDims = [0]) (hsd : dS.scatterDimsToOperandDims = [0])
    (hivd : dS.indexVectorDim = 1)
    (idx : IVec ⟨2, ![M, 1]⟩ w) (e : Fin M) (k : Fin D) :
    dS.resultIdx? (ix2 e k) idx
      = if h : 0 ≤ (idx (ix2 e 0)).toInt ∧ (idx (ix2 e 0)).toInt < N
        then some (ix2 ⟨(idx (ix2 e 0)).toInt.toNat, by omega⟩ k) else none := by
  obtain ⟨uw, iw, sd, iv, wf⟩ := dS
  dsimp only at huw hiw hsd hivd
  subst huw hiw hsd hivd

  have h0s : ScatterDims.start ⟨[1], [0], [0], 1, wf⟩ (ix2 e k) idx 0 = (idx (ix2 e 0)).toInt := by
    unfold ScatterDims.start
    rw [dif_pos (show (0 : Fin 2) ∈ [(0 : Fin 2)] from List.mem_singleton.mpr rfl)]
    refine congrArg (fun i => (idx i).toInt) ?_
    funext b
    refine Fin.ext ?_
    match b with
    | ⟨0, _⟩ => rfl
    | ⟨1, _⟩ => rfl
  have h0w : ScatterDims.window ⟨[1], [0], [0], 1, wf⟩ (ix2 e k) 0 = 0 := rfl

  have h1s : ScatterDims.start ⟨[1], [0], [0], 1, wf⟩ (ix2 e k) idx 1 = 0 := rfl
  have h1w : ScatterDims.window ⟨[1], [0], [0], 1, wf⟩ (ix2 e k) 1 = k.val := rfl
  generalize (⟨[1], [0], [0], 1, wf⟩ : ScatterDims ⟨2, ![N, D]⟩ ⟨2, ![M, 1]⟩ ⟨2, ![M, D]⟩) = d at h0s h0w h1s h1w ⊢
  have hs0 : (⟨2, ![N, D]⟩ : Shape).size 0 = N := rfl
  have hs1 : (⟨2, ![N, D]⟩ : Shape).size 1 = D := rfl
  have hk := k.isLt
  unfold ScatterDims.resultIdx?
  by_cases h : 0 ≤ (idx (ix2 e 0)).toInt ∧ (idx (ix2 e 0)).toInt < N
  · have hall : ∀ a, 0 ≤ d.start (ix2 e k) idx a + d.window (ix2 e k) a
        ∧ d.start (ix2 e k) idx a + d.window (ix2 e k) a < (⟨2, ![N, D]⟩ : Shape).size a := by
      intro a
      match a with
      | ⟨0, _⟩ =>
        show 0 ≤ d.start (ix2 e k) idx 0 + d.window (ix2 e k) 0
          ∧ d.start (ix2 e k) idx 0 + d.window (ix2 e k) 0 < (⟨2, ![N, D]⟩ : Shape).size 0
        rw [h0s, h0w, hs0]; omega
      | ⟨1, _⟩ =>
        show 0 ≤ d.start (ix2 e k) idx 1 + d.window (ix2 e k) 1
          ∧ d.start (ix2 e k) idx 1 + d.window (ix2 e k) 1 < (⟨2, ![N, D]⟩ : Shape).size 1
        rw [h1s, h1w, hs1]; omega
    rw [dif_pos hall, dif_pos h]
    refine congrArg some (funext fun a => Fin.ext ?_)
    match a with
    | ⟨0, _⟩ =>
      show (d.start (ix2 e k) idx 0 + d.window (ix2 e k) 0).toNat = (idx (ix2 e 0)).toInt.toNat
      rw [h0s, h0w]; simp
    | ⟨1, _⟩ =>
      show (d.start (ix2 e k) idx 1 + d.window (ix2 e k) 1).toNat = k.val
      rw [h1s, h1w]; simp
  · rw [dif_neg h, dif_neg]
    intro hall
    apply h
    have := hall 0
    rw [h0s, h0w, hs0] at this
    omega

theorem scatterRows_sum {N M D w : ℕ} (dS : ScatterDims ⟨2, ![N, D]⟩ ⟨2, ![M, 1]⟩ ⟨2, ![M, D]⟩)
    (huw : dS.updateWindowDims = [1]) (hiw : dS.insertedWindowDims = [0]) (hsd : dS.scatterDimsToOperandDims = [0])
    (hivd : dS.indexVectorDim = 1)
    (idx : IVec ⟨2, ![M, 1]⟩ w) (upd : (⟨2, ![M, D]⟩ : Shape).Idx → EReal) (n : Fin N) (j : Fin D) :
    ∑ u ∈ Finset.univ.filter (fun u => dS.resultIdx? u idx = some (ix2 n j)), upd u
      = ∑ e : Fin M, if land N (idx (ix2 e 0)) = some n then upd (ix2 e j) else 0 := by
  rw [Finset.sum_filter, sum_idx2]
  refine Finset.sum_congr rfl fun e _ => ?_
  simp only [scatterRows_resultIdx dS huw hiw hsd hivd]
  unfold land
  by_cases h : 0 ≤ (idx (ix2 e 0)).toInt ∧ (idx (ix2 e 0)).toInt < N
  · simp only [dif_pos h, Option.some.injEq, ix2_inj]
    by_cases hn : (⟨(idx (ix2 e 0)).toInt.toNat, by omega⟩ : Fin N) = n
    · simp [hn]
    · simp [hn]
  · simp [dif_neg h]

noncomputable abbrev srcVec (hsl0 : (⟨2, ![2, 800000]⟩ : Shape).Slices ![0, 0] ⟨2, ![1, 800000]⟩)
    (hsc : (⟨2, ![1, 800000]⟩ : Shape).ShapeCasts ⟨1, ![800000]⟩)
    (E : (⟨2, ![2, 800000]⟩ : Shape).Idx → BitVec 32) : IVec ⟨1, ![800000]⟩ 32 :=
  shapeCast ⟨1, ![800000]⟩ (extractStridedSlice ⟨2, ![1, 800000]⟩ ![0, 0] E hsl0) hsc

noncomputable abbrev dstVec (hsl1 : (⟨2, ![2, 800000]⟩ : Shape).Slices ![1, 0] ⟨2, ![1, 800000]⟩)
    (hsc : (⟨2, ![1, 800000]⟩ : Shape).ShapeCasts ⟨1, ![800000]⟩)
    (E : (⟨2, ![2, 800000]⟩ : Shape).Idx → BitVec 32) : IVec ⟨1, ![800000]⟩ 32 :=
  shapeCast ⟨1, ![800000]⟩ (extractStridedSlice ⟨2, ![1, 800000]⟩ ![1, 0] E hsl1) hsc

noncomputable abbrev wrapVec (hb0 : (⟨0, ![]⟩ : Shape).BroadcastsInDim ⟨1, ![800000]⟩ ![]) (src : IVec ⟨1, ![800000]⟩ 32) :
    IVec ⟨1, ![800000]⟩ 32 :=
  select (cmpi .slt src (broadcastInDim ⟨1, ![800000]⟩ ![] hb0 (constantI ⟨0, ![]⟩ 32 0#32)))
    (addi src (broadcastInDim ⟨1, ![800000]⟩ ![] hb0 (constantI ⟨0, ![]⟩ 32 50000#32))) src

theorem hostScatterAdd_eq {s si u : Shape} {w : ℕ} {φ : FTy} (d : ScatterDims s si u) (x : FVec Ideal s φ) (idx : IVec si w)
    (upd : FVec Ideal u φ) : Host.scatterAdd d x idx upd = Ideal.hostScatterAdd d x idx upd := rfl

section Agg

variable {D : ℕ}
    (dG : GatherDims ⟨2, ![50000, D]⟩ ⟨2, ![800000, 1]⟩ ⟨2, ![800000, D]⟩)
    (hoff : dG.offsetDims = [1]) (hcoll : dG.collapsedSliceDims = [0]) (hob : dG.operandBatchingDims = [])
    (hsim : dG.startIndexMap = [0]) (hivdG : dG.indexVectorDim = 1)
    (dS : ScatterDims ⟨2, ![50000, D]⟩ ⟨2, ![800000, 1]⟩ ⟨2, ![800000, D]⟩)
    (huw : dS.updateWindowDims = [1]) (hiw : dS.insertedWindowDims = [0]) (hsd : dS.scatterDimsToOperandDims = [0])
    (hivdS : dS.indexVectorDim = 1)
    (hsl0 : (⟨2, ![2, 800000]⟩ : Shape).Slices ![0, 0] ⟨2, ![1, 800000]⟩)
    (hsl1 : (⟨2, ![2, 800000]⟩ : Shape).Slices ![1, 0] ⟨2, ![1, 800000]⟩)
    (hsc : (⟨2, ![1, 800000]⟩ : Shape).ShapeCasts ⟨1, ![800000]⟩)
    (hb0 : (⟨0, ![]⟩ : Shape).BroadcastsInDim ⟨1, ![800000]⟩ ![])
    (hb1 : (⟨1, ![800000]⟩ : Shape).BroadcastsInDim ⟨2, ![800000, 1]⟩ ![0])
    (hbz : (⟨0, ![]⟩ : Shape).BroadcastsInDim ⟨2, ![50000, D]⟩ ![])

theorem srcVec_apply (E : (⟨2, ![2, 800000]⟩ : Shape).Idx → BitVec 32) (e : Fin 800000) : srcVec hsl0 hsc E (ix1 e) = E (ix2 0 e) :=
  (shapeCast_1a_a_apply _ hsc e).trans (slice2_axis0_apply 0 E hsl0 0 e 0 rfl)

theorem dstVec_apply (E : (⟨2, ![2, 800000]⟩ : Shape).Idx → BitVec 32) (e : Fin 800000) : dstVec hsl1 hsc E (ix1 e) = E (ix2 1 e) :=
  (shapeCast_1a_a_apply _ hsc e).trans (slice2_axis0_apply 1 E hsl1 0 e 1 rfl)

theorem wrapVec_srcVec_apply (E : (⟨2, ![2, 800000]⟩ : Shape).Idx → BitVec 32) (e : Fin 800000) : wrapVec hb0 (srcVec hsl0 hsc E) (ix1 e) = srcWord E e := by
  show Scalar.select (IntOp.cmpi .slt (srcVec hsl0 hsc E (ix1 e)) 0#32) (IntOp.addi (srcVec hsl0 hsc E (ix1 e)) 50000#32)
    (srcVec hsl0 hsc E (ix1 e)) = _
  rw [srcVec_apply]
  rfl

include hoff hcoll hob hsim hivdG huw hiw hsd hivdS

/-- Gathering the source rows and adding each into its destination row is the sum over the edges that land there. -/
theorem agg_chain (E : (⟨2, ![2, 800000]⟩ : Shape).Idx → BitVec 32) (H : (⟨2, ![50000, D]⟩ : Shape).Idx → EReal) :
    Spec.ofIdx2 (Ideal.hostScatterAdd dS
        (broadcastInDim ⟨2, ![50000, D]⟩ ![] hbz (constant (F := Ideal) ⟨0, ![]⟩ .f32 0x00000000#32))
        (broadcastInDim ⟨2, ![800000, 1]⟩ ![0] hb1 (dstVec hsl1 hsc E))
        (Host.gather dG H (broadcastInDim ⟨2, ![800000, 1]⟩ ![0] hb1 (wrapVec hb0 (srcVec hsl0 hsc E)))))
      = Spec.agg (srcRow E) (dstLand E) (Spec.ofIdx2 H) := by
  funext n j

  show Ideal.ofBits .f32 0x00000000#32 + _ = _
  rw [Ideal.ofBits_zero_f32, zero_add, scatterRows_sum dS huw hiw hsd hivdS]
  unfold Spec.agg
  refine Finset.sum_congr rfl fun e _ => ?_

  rw [bcastCol_apply, dstVec_apply, gatherRows_apply dG hoff hcoll hob hsim hivdG (by norm_num)]
  have hrow : (⟨min (broadcastInDim ⟨2, ![800000, 1]⟩ ![0] hb1 (wrapVec hb0 (srcVec hsl0 hsc E)) (ix2 e 0)).toInt.toNat (50000 - 1),
      by omega⟩ : Fin 50000) = srcRow E e := by
    refine Fin.ext ?_
    show min (broadcastInDim ⟨2, ![800000, 1]⟩ ![0] hb1 (wrapVec hb0 (srcVec hsl0 hsc E)) (ix2 e 0)).toInt.toNat (50000 - 1)
      = min (srcWord E e).toInt.toNat (50000 - 1)
    rw [bcastCol_apply, wrapVec_srcVec_apply]
  rw [hrow]
  rfl

/-- The same with the gathered rows widened first: widening changes no value. -/
theorem agg_chain_extf_host (hlt : FTy.bits .bf16 < FTy.bits .f32) (E : (⟨2, ![2, 800000]⟩ : Shape).Idx → BitVec 32) (H : FVec Ideal ⟨2, ![50000, D]⟩ .bf16) :
    Spec.ofIdx2 (Host.scatterAdd (F := Ideal) (φ := .f32) dS
        (broadcastInDim ⟨2, ![50000, D]⟩ ![] hbz (constant (F := Ideal) ⟨0, ![]⟩ .f32 0x00000000#32))
        (broadcastInDim ⟨2, ![800000, 1]⟩ ![0] hb1 (dstVec hsl1 hsc E))
        (extf (F := Ideal) .f32 (Host.gather dG H (broadcastInDim ⟨2, ![800000, 1]⟩ ![0] hb1 (wrapVec hb0 (srcVec hsl0 hsc E)))) hlt))
      = Spec.agg (srcRow E) (dstLand E) (Spec.ofIdx2 H) := by
  rw [hostScatterAdd_eq]
  exact agg_chain dG hoff hcoll hob hsim hivdG dS huw hiw hsd hivdS hsl0 hsl1 hsc hb0 hb1 hbz E H

end Agg

theorem pool_chain
    (dP : ScatterDims ⟨2, ![512, 64]⟩ ⟨2, ![50000, 1]⟩ ⟨2, ![50000, 64]⟩)
    (huw : dP.updateWindowDims = [1]) (hiw : dP.insertedWindowDims = [0]) (hsd : dP.scatterDimsToOperandDims = [0])
    (hivd : dP.indexVectorDim = 1)
    (hb1 : (⟨1, ![50000]⟩ : Shape).BroadcastsInDim ⟨2, ![50000, 1]⟩ ![0])
    (hbz : (⟨0, ![]⟩ : Shape).BroadcastsInDim ⟨2, ![512, 64]⟩ ![])
    (B : (⟨1, ![50000]⟩ : Shape).Idx → BitVec 32) (H : (⟨2, ![50000, 64]⟩ : Shape).Idx → EReal) :
    Spec.ofIdx2 (Ideal.hostScatterAdd dP
        (broadcastInDim ⟨2, ![512, 64]⟩ ![] hbz (constant (F := Ideal) ⟨0, ![]⟩ .f32 0x00000000#32))
        (broadcastInDim ⟨2, ![50000, 1]⟩ ![0] hb1 B) H)
      = Spec.poolR (graphLand B) (Spec.ofIdx2 H) := by
  funext s j
  show Ideal.ofBits .f32 0x00000000#32 + _ = _
  rw [Ideal.ofBits_zero_f32, scatterRows_sum dP huw hiw hsd hivd]
  unfold Spec.poolR
  refine congrArg (fun x => (0 : EReal) + x) (Finset.sum_congr rfl fun n _ => ?_)
  rw [bcastCol_apply]
  rfl

theorem land_eq_some_iff {N : ℕ} (hN : N ≤ 2 ^ 31) (x : BitVec 32) (s : Fin N) :
    land N x = some s ↔ x = BitVec.ofNat 32 s.val := by
  have hs := s.isLt
  have hsm : (BitVec.ofNat 32 s.val).toInt = s.val :=
    StableHlo.Predicate.toInt_ofNat_small s.val (by omega)
  unfold land
  constructor
  · intro h
    split at h
    · next hx =>
      have hv : x.toInt.toNat = s.val := congrArg Fin.val (Option.some.inj h)
      refine BitVec.eq_of_toInt_eq ?_
      rw [hsm]; omega
    · exact absurd h (by simp)
  · intro h
    subst h
    rw [dif_pos (by rw [hsm]; omega)]
    refine congrArg some (Fin.ext ?_)
    show (BitVec.ofNat 32 s.val).toInt.toNat = s.val
    rw [hsm]; simp

theorem oneHot_eq (B : (⟨1, ![50000]⟩ : Shape).Idx → BitVec 32) (n : Fin 50000) (s : Fin 512) :
    (if B (ix1 n) = BitVec.ofNat 32 s.val then (1 : EReal) else 0) = if graphLand B n = some s then 1 else 0 :=
  if_congr (land_eq_some_iff (by norm_num) (B (ix1 n)) s).symm rfl rfl

end Cert.Edge

end
-- ==== Proof.KernelIdeal.HostVals.lean ====
import proofs.«410414_j13597866459249_2_alg».proof.Proof.KernelIdeal.RegionsP
import proofs.«410414_j13597866459249_2_alg».proof.Proof.EdgeOps

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Spec

-- A vector read as a one-row matrix: its only row is the vector.
theorem row_of_reshape {w : ℕ} {x x' : (⟨1, ![w]⟩ : Shape).Idx → EReal} {y : (⟨2, ![1, w]⟩ : Shape).Idx → EReal}
    {h : (⟨1, ![w]⟩ : Shape).ShapeCasts ⟨2, ![1, w]⟩} (ex : x = x') (ey : y = shapeCast ⟨2, ![1, w]⟩ x h) :
    ofIdx2Row y = ofIdx1 x' := by
  subst ex ey
  funext k
  refine shapeCast_apply x h (ix2 0 k) (ix1 k) ?_
  rw [Shape.rowMajor_val_one, Shape.rowMajor_val_two]
  show k.val = (0 : Fin 1).val * w + k.val
  simp

-- Sixty-four consecutive rows of a 192-row matrix.
theorem rows64_of_slice (off : ℕ) (hoff : off + 64 ≤ 192) {x x' : S192x64.Idx → EReal} {y : S64x64.Idx → EReal}
    {h : S192x64.Slices ![off, 0] S64x64} (ex : x = x') (ey : y = extractStridedSlice S64x64 ![off, 0] x h) :
    ofIdx2 y = rows64 (ofIdx2 x') off hoff := by
  subst ex ey
  funext k j
  refine extractStridedSlice_apply ![off, 0] x h (ix2 k j) (ix2 ⟨off + k.val, by omega⟩ j) fun a => ?_
  match a with
  | ⟨0, _⟩ => rfl
  | ⟨1, _⟩ => show j.val = 0 + j.val; omega

section HostVals
variable (m : (ℓ : Loc nD τ sig) → Buf (Elt Ideal) ℓ) (o : Outs (F := Ideal)) (c : Dev nD)

abbrev edges : S2x800000.Idx → BitVec 32 := m ((c : Thread nD τ).loc main_arg1)
abbrev srcK : Fin 800000 → Fin 50000 := Cert.Edge.srcRow (edges m c)
abbrev dstK : Fin 800000 → Option (Fin 50000) := Cert.Edge.dstLand (edges m c)

noncomputable def Vat : ℕ → Dev nD → Valuation τ sig (Elt Ideal)
  | 0 => V0 m | 1 => V1 m | 2 => V2 m o | 3 => V3 m o | 4 => V4 m o | 5 => V5 m o
  | 6 => V6 m o | 7 => V7 m o | 8 => V8 m o | _ => V9 m o

noncomputable def Wat : ℕ → List (Ref sig .tc)
  | 0 => hostOps0_W | 1 => [main_v4_0, main_v4_1] | 2 => hostOps1_W | 3 => [main_v18_0, main_v18_1] | 4 => hostOps2_W
  | 5 => [main_v32_0, main_v32_1] | 6 => hostOps3_W | 7 => [main_v46_0, main_v46_1] | 8 => hostOps4_W | _ => []

theorem step : ∀ (j : ℕ) (r : Ref sig .tc), r ∉ Wat j → Vat m o (j + 1) c r = Vat m o j c r
  | 0, r, h => V1_of m c r h
  | 1, r, h => V2_of m o c r h
  | 2, r, h => V3_of m o c r h
  | 3, r, h => V4_of m o c r h
  | 4, r, h => V5_of m o c r h
  | 5, r, h => V6_of m o c r h
  | 6, r, h => V7_of m o c r h
  | 7, r, h => V8_of m o c r h
  | 8, r, h => V9_of m o c r h
  | _ + 9, _, _ => rfl

-- What no item between boundaries i and j writes is the same at both.
theorem kept (i j : ℕ) (hij : i ≤ j) (r : Ref sig .tc) (h : ∀ k, k < j → i ≤ k → r ∉ Wat k) :
    Vat m o j c r = Vat m o i c r := by
  induction j, hij using Nat.le_induction with
  | base => rfl
  | succ j hij ih => exact (step m o c j r (h j j.lt_succ_self hij)).trans (ih fun k hk => h k (Nat.lt_succ_of_lt hk))

-- In particular what no item before boundary j writes still holds its launch contents.
theorem launch (j : ℕ) (r : Ref sig .tc) (h : ∀ k, k < j → r ∉ Wat k) : Vat m o j c r = V0 m c r :=
  kept m o c 0 j j.zero_le r fun k hk _ => h k hk

theorem Vat3 : Vat m o 3 c = StableHlo.after hostOps1 (Vat m o 2 c) := rfl
theorem Vat5 : Vat m o 5 c = StableHlo.after hostOps2 (Vat m o 4 c) := rfl
theorem Vat7 : Vat m o 7 c = StableHlo.after hostOps3 (Vat m o 6 c) := rfl
theorem Vat9 : Vat m o 9 c = StableHlo.after hostOps4 (Vat m o 8 c) := rfl

theorem V_v1 (j : ℕ) (hj : 1 ≤ j) (h : ∀ k, k < j → 1 ≤ k → main_v1 ∉ Wat k) :
    Vat m o j c main_v1 = Cert.Edge.srcVec slices_S2x800000_S1x800000_0_0 shapeCasts_S1x800000_S800000 (edges m c) :=
  (kept m o c 1 j hj main_v1 h).trans (by show StableHlo.after hostOps0 (V0 m c) _ = _; after_results; rfl)

theorem V_v3 (j : ℕ) (hj : 1 ≤ j) (h : ∀ k, k < j → 1 ≤ k → main_v3 ∉ Wat k) :
    Vat m o j c main_v3 = Cert.Edge.dstVec slices_S2x800000_S1x800000_1_0 shapeCasts_S1x800000_S800000 (edges m c) :=
  (kept m o c 1 j hj main_v3 h).trans (by show StableHlo.after hostOps0 (V0 m c) _ = _; after_results; rfl)

theorem V3_v15 : ofIdx2 (Vat m o 3 c main_v15) = agg (srcK m c) (dstK m c) (ofIdx2 (Vat m o 2 c main_v4_1)) := by
  rw [Vat3]
  after_results_simp
  rw [V_v1 m o c 2 (by decide) (by decide), V_v3 m o c 2 (by decide) (by decide)]
  exact Cert.Edge.agg_chain_extf_host _ rfl rfl rfl rfl rfl _ rfl rfl rfl rfl _ _ _ _ _ _ _ _ _
theorem V3_v16 : ofIdx2Row (Vat m o 3 c main_v16) = ofIdx1 (V0 m c main_arg4) :=
  row_of_reshape (launch m o c 2 main_arg4 (by decide)) (by rw [Vat3]; after_results; rfl)
theorem V3_v17 : ofIdx2Row (Vat m o 3 c main_v17) = ofIdx1 (V0 m c main_arg6) :=
  row_of_reshape (launch m o c 2 main_arg6 (by decide)) (by rw [Vat3]; after_results; rfl)
theorem V5_v29 : ofIdx2 (Vat m o 5 c main_v29) = agg (srcK m c) (dstK m c) (ofIdx2 (Vat m o 4 c main_v18_1)) := by
  rw [Vat5]
  after_results_simp
  rw [V_v1 m o c 4 (by decide) (by decide), V_v3 m o c 4 (by decide) (by decide)]
  exact Cert.Edge.agg_chain_extf_host _ rfl rfl rfl rfl rfl _ rfl rfl rfl rfl _ _ _ _ _ _ _ _ _
theorem V5_v30 : ofIdx2Row (Vat m o 5 c main_v30) = ofIdx1 (V0 m c main_arg8) :=
  row_of_reshape (launch m o c 4 main_arg8 (by decide)) (by rw [Vat5]; after_results; rfl)
theorem V5_v31 : ofIdx2Row (Vat m o 5 c main_v31) = ofIdx1 (V0 m c main_arg10) :=
  row_of_reshape (launch m o c 4 main_arg10 (by decide)) (by rw [Vat5]; after_results; rfl)
theorem V7_v43 : ofIdx2 (Vat m o 7 c main_v43) = agg (srcK m c) (dstK m c) (ofIdx2 (Vat m o 6 c main_v32_1)) := by
  rw [Vat7]
  after_results_simp
  rw [V_v1 m o c 6 (by decide) (by decide), V_v3 m o c 6 (by decide) (by decide)]
  exact Cert.Edge.agg_chain_extf_host _ rfl rfl rfl rfl rfl _ rfl rfl rfl rfl _ _ _ _ _ _ _ _ _
theorem V7_v44 : ofIdx2Row (Vat m o 7 c main_v44) = ofIdx1 (V0 m c main_arg12) :=
  row_of_reshape (launch m o c 6 main_arg12 (by decide)) (by rw [Vat7]; after_results; rfl)
theorem V7_v45 : ofIdx2Row (Vat m o 7 c main_v45) = ofIdx1 (V0 m c main_arg14) :=
  row_of_reshape (launch m o c 6 main_arg14 (by decide)) (by rw [Vat7]; after_results; rfl)
theorem V9_v47 : ofIdx2 (Vat m o 9 c main_v47) = rows64 (ofIdx2 (V0 m c main_arg15)) 0 (by omega) :=
  rows64_of_slice 0 (by omega) (launch m o c 8 main_arg15 (by decide)) (by rw [Vat9]; after_results)
theorem V9_v48 : ofIdx2 (Vat m o 9 c main_v48) = rows64 (ofIdx2 (V0 m c main_arg15)) 64 (by omega) :=
  rows64_of_slice 64 (by omega) (launch m o c 8 main_arg15 (by decide)) (by rw [Vat9]; after_results)
theorem V9_v49 : ofIdx2 (Vat m o 9 c main_v49) = rows64 (ofIdx2 (V0 m c main_arg15)) 128 (by omega) :=
  rows64_of_slice 128 (by omega) (launch m o c 8 main_arg15 (by decide)) (by rw [Vat9]; after_results)
theorem V9_v50 : ofIdx2Row (Vat m o 9 c main_v50) = ofIdx1 (V0 m c main_arg16) :=
  row_of_reshape (launch m o c 8 main_arg16 (by decide)) (by rw [Vat9]; after_results; rfl)
theorem V9_v51 : ofIdx2Row (Vat m o 9 c main_v51) = ofIdx1 (V0 m c main_arg18) :=
  row_of_reshape (launch m o c 8 main_arg18 (by decide)) (by rw [Vat9]; after_results; rfl)
theorem V9_v52 : ofIdx2Row (Vat m o 9 c main_v52) = ofIdx1 (V0 m c main_arg19) :=
  row_of_reshape (launch m o c 8 main_arg19 (by decide)) (by rw [Vat9]; after_results; rfl)
theorem V9_v53 : ofIdx2Row (Vat m o 9 c main_v53) = ofIdx1 (V0 m c main_arg20) :=
  row_of_reshape (launch m o c 8 main_arg20 (by decide)) (by rw [Vat9]; after_results; rfl)
theorem V9_v54 : ofIdx2Row (Vat m o 9 c main_v54) = ofIdx1 (V0 m c main_arg21) :=
  row_of_reshape (launch m o c 8 main_arg21 (by decide)) (by rw [Vat9]; after_results; rfl)
theorem V9_v55 : ofIdx2Row (Vat m o 9 c main_v55) = ofIdx1 (V0 m c main_arg22) :=
  row_of_reshape (launch m o c 8 main_arg22 (by decide)) (by rw [Vat9]; after_results; rfl)
theorem V9_v56 : ofIdx2Row (Vat m o 9 c main_v56) = ofIdx1 (V0 m c main_arg24) :=
  row_of_reshape (launch m o c 8 main_arg24 (by decide)) (by rw [Vat9]; after_results; rfl)
theorem V9_v57 : ofIdx2Row (Vat m o 9 c main_v57) = ofIdx1 (V0 m c main_arg26) :=
  row_of_reshape (launch m o c 8 main_arg26 (by decide)) (by rw [Vat9]; after_results; rfl)
theorem V9_v58 (n : Fin 50000) : Vat m o 9 c main_v58 (ix2 n 0) = V0 m c main_arg2 (ix1 n) := by
  have ey : Vat m o 9 c main_v58 = shapeCast S50000x1 (Vat m o 8 c main_arg2 : S50000.Idx → BitVec 32) shapeCasts_S50000_S50000x1 := by
    rw [Vat9]; after_results; rfl
  rw [ey, launch m o c 8 main_arg2 (by decide)]
  refine shapeCast_apply _ _ (ix2 n 0) (ix1 n) ?_
  rw [Shape.rowMajor_val_one, Shape.rowMajor_val_two]
  show n.val = n.val * 1 + (0 : Fin 1).val
  simp

end HostVals

end Cert.KernelIdeal.Hand

end
-- ==== Proof.Algebra.lean ====
import proofs.«410414_j13597866459249_2_alg».proof.Proof.Spec
import Mathlib.Data.EReal.Basic
import Mathlib.Data.EReal.Operations
import Mathlib.Algebra.BigOperators.Fin
import Mathlib.Algebra.BigOperators.Ring.Finset

noncomputable section

namespace Cert.Algebra

open Cert.Spec

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite_zero (p : Prop) [Decidable p] (a : ℝ) :
    ((if p then a else 0 : ℝ) : EReal) = if p then (a : EReal) else 0 := by
  split_ifs <;> simp

theorem mm_add_agg_real {E N d : ℕ} (ρ : Fin E → Fin N) (lnd : Fin E → Option (Fin N))
    (x : Fin N → Fin d → ℝ) (w : Fin d → Fin 64 → ℝ) :
    mm (add (fun n k => (x n k : EReal)) (agg ρ lnd (fun n k => (x n k : EReal)))) (fun k j => (w k j : EReal))
      = add (mm (fun n k => (x n k : EReal)) (fun k j => (w k j : EReal)))
          (agg ρ lnd (mm (fun n k => (x n k : EReal)) (fun k j => (w k j : EReal)))) := by
  funext n j

  have hL : mm (add (fun n k => (x n k : EReal)) (agg ρ lnd (fun n k => (x n k : EReal)))) (fun k j => (w k j : EReal)) n j
      = ((∑ k : Fin d, (x n k + ∑ e : Fin E, if lnd e = some n then x (ρ e) k else 0) * w k j : ℝ) : EReal) := by
    simp only [mm, add, agg, coe_sum, EReal.coe_mul, EReal.coe_add, coe_ite_zero]
  have hR : add (mm (fun n k => (x n k : EReal)) (fun k j => (w k j : EReal)))
          (agg ρ lnd (mm (fun n k => (x n k : EReal)) (fun k j => (w k j : EReal)))) n j
      = ((∑ k : Fin d, x n k * w k j + ∑ e : Fin E, if lnd e = some n then ∑ k : Fin d, x (ρ e) k * w k j else 0 : ℝ) : EReal) := by
    simp only [mm, add, agg, coe_sum, EReal.coe_mul, EReal.coe_add, coe_ite_zero]
  rw [hL, hR]
  refine congrArg (fun r : ℝ => (r : EReal)) ?_

  simp only [add_mul, Finset.sum_add_distrib, Finset.sum_mul]
  refine congrArg (fun r : ℝ => (∑ k : Fin d, x n k * w k j) + r) ?_
  rw [Finset.sum_comm]
  refine Finset.sum_congr rfl (fun e _ => ?_)
  by_cases h : lnd e = some n
  · simp only [if_pos h]
  · simp only [if_neg h, zero_mul, Finset.sum_const_zero]

theorem layer0_eq {E N d : ℕ} (ρ : Fin E → Fin N) (lnd : Fin E → Option (Fin N)) (X : Mat N d) (W1 : Mat d 64) (b1 : Row 64) (W2 : Mat 64 64) (b2 : Row 64)
    (hX : ∀ n k, ∃ r : ℝ, X n k = (r : EReal)) (hW : ∀ k j, ∃ r : ℝ, W1 k j = (r : EReal)) :
    layer0K ρ lnd b1 W2 b2 (mm X W1) = layer ρ lnd W1 b1 W2 b2 X := by
  choose x hx using hX
  choose w hw using hW
  obtain rfl : X = fun n k => (x n k : EReal) := funext fun n => funext fun k => hx n k
  obtain rfl : W1 = fun k j => (w k j : EReal) := funext fun k => funext fun j => hw k j
  unfold layer0K layer
  rw [mm_add_agg_real]

theorem sum192 (f : Fin 192 → EReal) :
    ∑ k : Fin 192, f k
      = (∑ k : Fin 64, f ⟨k.val, by omega⟩) + (∑ k : Fin 64, f ⟨64 + k.val, by omega⟩)
          + ∑ k : Fin 64, f ⟨128 + k.val, by omega⟩ := by
  have h1 := Fin.sum_univ_add (a := 128) (b := 64) (f : Fin (128 + 64) → EReal)
  have h2 := Fin.sum_univ_add (a := 64) (b := 64) (fun i : Fin (64 + 64) => f (Fin.castAdd 64 i))
  refine h1.trans ?_
  rw [h2]
  rfl

theorem mix_eq {N : ℕ} (H0 H1 H2 : Mat N 64) (J : Mat 192 64) (jb : Row 64) : mixK H0 H1 H2 J jb = mixR H0 H1 H2 J jb := by
  funext n j
  simp only [mixK, mixR, addB, add, mm]
  refine congrArg (fun r : EReal => r + jb j) ?_
  rw [sum192]
  refine congrArg₂ (fun a b : EReal => a + b) (congrArg₂ (fun a b : EReal => a + b) ?_ ?_) ?_
  · refine Finset.sum_congr rfl (fun k _ => ?_)
    have hk : k.val < 64 := k.isLt
    simp only [cat3, rows64, dif_pos hk, Nat.zero_add]
  · refine Finset.sum_congr rfl (fun k _ => ?_)
    have hk : ¬ (64 + k.val < 64) := by omega
    have hk' : 64 + k.val < 128 := by have := k.isLt; omega
    simp only [cat3, rows64, dif_neg hk, dif_pos hk', Nat.add_sub_cancel_left]
  · refine Finset.sum_congr rfl (fun k _ => ?_)
    have hk : ¬ (128 + k.val < 64) := by omega
    have hk' : ¬ (128 + k.val < 128) := by omega
    simp only [cat3, rows64, dif_neg hk, dif_neg hk', Nat.add_sub_cancel_left]

theorem pool_eq {N G d : ℕ} (oh : Fin N → Fin G → EReal) (lndB : Fin N → Option (Fin G)) (H : Mat N d)
    (hoh : ∀ n s, oh n s = if lndB n = some s then 1 else 0) : poolK oh H = poolR lndB H := by
  funext s j
  simp only [poolK, poolR]
  rw [zero_add]
  refine Finset.sum_congr rfl (fun n _ => ?_)
  rw [hoh]
  split_ifs
  · rw [one_mul]
  · rw [zero_mul]

end Cert.Algebra

end
-- ==== Proof.Model.lean ====
import proofs.«410414_j13597866459249_2_alg».proof.Proof.Spec
import proofs.«410414_j13597866459249_2_alg».proof.Proof.Algebra

noncomputable section

namespace Cert.Model

open Cert.Spec

structure Params where
  x : Mat 50000 100
  w10 : Mat 100 64
  b10 : Row 64
  w20 : Mat 64 64
  b20 : Row 64
  w11 : Mat 64 64
  b11 : Row 64
  w21 : Mat 64 64
  b21 : Row 64
  w12 : Mat 64 64
  b12 : Row 64
  w22 : Mat 64 64
  b22 : Row 64
  jw : Mat 192 64
  jb : Row 64
  fw1 : Mat 64 64
  fb1 : Row 64
  bg : Row 64
  bb : Row 64
  bm : Row 64
  bv : Row 64
  fw2 : Mat 64 64
  fb2 : Row 64
  ow : Mat 64 24
  ob : Row 24

variable (eps : EReal) (ρ : Fin 800000 → Fin 50000) (l : Fin 800000 → Option (Fin 50000))

def modelR (lB : Fin 50000 → Option (Fin 512)) (p : Params) : Mat 512 24 :=
  let h0 := layer ρ l p.w10 p.b10 p.w20 p.b20 p.x
  let h1 := layer ρ l p.w11 p.b11 p.w21 p.b21 h0
  let h2 := layer ρ l p.w12 p.b12 p.w22 p.b22 h1
  head eps p.fw1 p.fb1 p.bg p.bb p.bm p.bv p.fw2 p.fb2 p.ow p.ob (poolR lB (mixR h0 h1 h2 p.jw p.jb))

def modelK (oh : Fin 50000 → Fin 512 → EReal) (p : Params) : Mat 512 24 :=
  let h0 := layer0K ρ l p.b10 p.w20 p.b20 (mm p.x p.w10)
  let h1 := layer ρ l p.w11 p.b11 p.w21 p.b21 h0
  let h2 := layer ρ l p.w12 p.b12 p.w22 p.b22 h1
  head eps p.fw1 p.fb1 p.bg p.bb p.bm p.bv p.fw2 p.fb2 p.ow p.ob (poolK oh (mixK h0 h1 h2 p.jw p.jb))

theorem model_eq (lB : Fin 50000 → Option (Fin 512)) (oh : Fin 50000 → Fin 512 → EReal) (p : Params)
    (hx : ∀ n k, ∃ r : ℝ, p.x n k = (r : EReal)) (hw : ∀ k j, ∃ r : ℝ, p.w10 k j = (r : EReal))
    (hoh : ∀ n s, oh n s = if lB n = some s then 1 else 0) :
    modelK eps ρ l oh p = modelR eps ρ l lB p := by
  unfold modelK modelR
  simp only []
  rw [Cert.Algebra.layer0_eq ρ l p.x p.w10 p.b10 p.w20 p.b20 hx hw, Cert.Algebra.mix_eq, Cert.Algebra.pool_eq oh lB _ hoh]

end Cert.Model

end
-- ==== Proof.KernelIdeal.KerValue.lean ====
import proofs.«410414_j13597866459249_2_alg».proof.Proof.KernelIdeal.Segs
import proofs.«410414_j13597866459249_2_alg».proof.Proof.KernelIdeal.Val0
import proofs.«410414_j13597866459249_2_alg».proof.Proof.KernelIdeal.Val1
import proofs.«410414_j13597866459249_2_alg».proof.Proof.KernelIdeal.Val2
import proofs.«410414_j13597866459249_2_alg».proof.Proof.KernelIdeal.Val3
import proofs.«410414_j13597866459249_2_alg».proof.Proof.KernelIdeal.Val4
import proofs.«410414_j13597866459249_2_alg».proof.Proof.KernelIdeal.HostVals
import proofs.«410414_j13597866459249_2_alg».proof.Proof.Model

noncomputable section

namespace Cert.KernelIdeal.Hand

open Cert.KernelIdeal Cert.KernelIdeal.Gen
open Idealize.ShloMosaic Idealize.ShloMosaic.TcCoe
open Idealize.SL Idealize.SL.Sem

section KerValue

open Cert.Spec Idealize.ShloMosaic.ValueIdx

variable (m : (ℓ : Loc nD τ sig) → Buf (Elt Ideal) ℓ) (c : Dev nD)

noncomputable def paramsK : Cert.Model.Params where
  x := Spec.ofIdx2 (m ((c : Thread nD τ).loc main_arg0) : S50000x100.Idx → EReal)
  w10 := Spec.ofIdx2 (m ((c : Thread nD τ).loc main_arg3) : S100x64.Idx → EReal)
  b10 := Spec.ofIdx1 (m ((c : Thread nD τ).loc main_arg4) : S64.Idx → EReal)
  w20 := Spec.ofIdx2 (m ((c : Thread nD τ).loc main_arg5) : S64x64.Idx → EReal)
  b20 := Spec.ofIdx1 (m ((c : Thread nD τ).loc main_arg6) : S64.Idx → EReal)
  w11 := Spec.ofIdx2 (m ((c : Thread nD τ).loc main_arg7) : S64x64.Idx → EReal)
  b11 := Spec.ofIdx1 (m ((c : Thread nD τ).loc main_arg8) : S64.Idx → EReal)
  w21 := Spec.ofIdx2 (m ((c : Thread nD τ).loc main_arg9) : S64x64.Idx → EReal)
  b21 := Spec.ofIdx1 (m ((c : Thread nD τ).loc main_arg10) : S64.Idx → EReal)
  w12 := Spec.ofIdx2 (m ((c : Thread nD τ).loc main_arg11) : S64x64.Idx → EReal)
  b12 := Spec.ofIdx1 (m ((c : Thread nD τ).loc main_arg12) : S64.Idx → EReal)
  w22 := Spec.ofIdx2 (m ((c : Thread nD τ).loc main_arg13) : S64x64.Idx → EReal)
  b22 := Spec.ofIdx1 (m ((c : Thread nD τ).loc main_arg14) : S64.Idx → EReal)
  jw := Spec.ofIdx2 (m ((c : Thread nD τ).loc main_arg15) : S192x64.Idx → EReal)
  jb := Spec.ofIdx1 (m ((c : Thread nD τ).loc main_arg16) : S64.Idx → EReal)
  fw1 := Spec.ofIdx2 (m ((c : Thread nD τ).loc main_arg17) : S64x64.Idx → EReal)
  fb1 := Spec.ofIdx1 (m ((c : Thread nD τ).loc main_arg18) : S64.Idx → EReal)
  bg := Spec.ofIdx1 (m ((c : Thread nD τ).loc main_arg19) : S64.Idx → EReal)
  bb := Spec.ofIdx1 (m ((c : Thread nD τ).loc main_arg20) : S64.Idx → EReal)
  bm := Spec.ofIdx1 (m ((c : Thread nD τ).loc main_arg21) : S64.Idx → EReal)
  bv := Spec.ofIdx1 (m ((c : Thread nD τ).loc main_arg22) : S64.Idx → EReal)
  fw2 := Spec.ofIdx2 (m ((c : Thread nD τ).loc main_arg23) : S64x64.Idx → EReal)
  fb2 := Spec.ofIdx1 (m ((c : Thread nD τ).loc main_arg24) : S64.Idx → EReal)
  ow := Spec.ofIdx2 (m ((c : Thread nD τ).loc main_arg25) : S64x24.Idx → EReal)
  ob := Spec.ofIdx1 (m ((c : Thread nD τ).loc main_arg26) : S24.Idx → EReal)

noncomputable def stP : Mat 50000 64 := mm (paramsK m c).x (paramsK m c).w10
noncomputable def stH0 : Mat 50000 64 := layer0K (srcK m c) (dstK m c) (paramsK m c).b10 (paramsK m c).w20 (paramsK m c).b20 (stP m c)
noncomputable def stH1 : Mat 50000 64 := layer (srcK m c) (dstK m c) (paramsK m c).w11 (paramsK m c).b11 (paramsK m c).w21 (paramsK m c).b21 (stH0 m c)
noncomputable def stH2 : Mat 50000 64 := layer (srcK m c) (dstK m c) (paramsK m c).w12 (paramsK m c).b12 (paramsK m c).w22 (paramsK m c).b22 (stH1 m c)

-- Two arrays with one value, rewritten to a closed form.
theorem stage_of {a b : ℕ} {X Y A B : (⟨2, ![a, b]⟩ : Shape).Idx → EReal} {M N : Mat a b} (hX : X = A) (hY : Y = B)
    (hA : ofIdx2 A = M) (hB : ofIdx2 B = M) (hM : M = N) : ofIdx2 X = N ∧ ofIdx2 Y = N := by
  subst hX hY hM
  exact ⟨hA, hB⟩

theorem stage0 : ofIdx2 (Vat m (outs m) 2 c main_v4_0) = stP m c ∧ ofIdx2 (Vat m (outs m) 2 c main_v4_1) = stP m c :=
  stage_of ((V2_main_v4_0 m _ c).trans (outs_main_v4_0 m c)) ((V2_main_v4_1 m _ c).trans (outs_main_v4_1 m c))
    (val0_2 (fun c b => Vat m (outs m) 1 c b) c) (val0_3 _ c)
    (by rw [launch m _ c 1 main_arg0 (by decide), launch m _ c 1 main_arg3 (by decide)]; rfl)

theorem stage1 : ofIdx2 (Vat m (outs m) 4 c main_v18_0) = stH0 m c ∧ ofIdx2 (Vat m (outs m) 4 c main_v18_1) = stH0 m c :=
  stage_of ((V4_main_v18_0 m _ c).trans (outs_main_v18_0 m c)) ((V4_main_v18_1 m _ c).trans (outs_main_v18_1 m c))
    (val1_5 (fun c b => Vat m (outs m) 3 c b) c) (val1_6 _ c)
    (by rw [kept m _ c 2 3 (by decide) main_v4_0 (by decide), (stage0 m c).1, V3_v15, (stage0 m c).2, V3_v16, launch m _ c 3 main_arg5 (by decide), V3_v17]; rfl)

theorem stage2 : ofIdx2 (Vat m (outs m) 6 c main_v32_0) = stH1 m c ∧ ofIdx2 (Vat m (outs m) 6 c main_v32_1) = stH1 m c :=
  stage_of ((V6_main_v32_0 m _ c).trans (outs_main_v32_0 m c)) ((V6_main_v32_1 m _ c).trans (outs_main_v32_1 m c))
    (val2_6 (fun c b => Vat m (outs m) 5 c b) c) (val2_7 _ c)
    (by rw [kept m _ c 4 5 (by decide) main_v18_0 (by decide), (stage1 m c).1, V5_v29, (stage1 m c).2, launch m _ c 5 main_arg7 (by decide), V5_v30, launch m _ c 5 main_arg9 (by decide), V5_v31]; rfl)

theorem stage3 : ofIdx2 (Vat m (outs m) 8 c main_v46_0) = stH2 m c ∧ ofIdx2 (Vat m (outs m) 8 c main_v46_1) = stH2 m c :=
  stage_of ((V8_main_v46_0 m _ c).trans (outs_main_v46_0 m c)) ((V8_main_v46_1 m _ c).trans (outs_main_v46_1 m c))
    (val3_6 (fun c b => Vat m (outs m) 7 c b) c) (val3_7 _ c)
    (by rw [kept m _ c 6 7 (by decide) main_v32_0 (by decide), (stage2 m c).1, V7_v43, (stage2 m c).2, launch m _ c 7 main_arg11 (by decide), V7_v44, launch m _ c 7 main_arg13 (by decide), V7_v45]; rfl)

theorem ker_value : Spec.ofIdx2 (outs m 10 main_v59 c : S512x24.Idx → EReal)
    = Cert.Model.modelK eps4 (Cert.Edge.srcRow (edges m c)) (Cert.Edge.dstLand (edges m c))
        (fun n s => if (m ((c : Thread nD τ).loc main_arg2) : S50000.Idx → BitVec 32) (ValueIdx.ix1 n) = BitVec.ofNat 32 s.val then 1 else 0) (paramsK m c) := by
  rw [outs_main_v59]
  refine (val4 (fun c b => Vat m (outs m) 9 c b) c).trans ?_
  simp only [V9_v58 m (outs m) c]
  rw [launch m _ c 9 main_arg17 (by decide), V9_v51, V9_v52, V9_v53, V9_v54, V9_v55, launch m _ c 9 main_arg23 (by decide), V9_v56, launch m _ c 9 main_arg25 (by decide), V9_v57,
    kept m _ c 4 9 (by decide) main_v18_0 (by decide), (stage1 m c).1, V9_v47, kept m _ c 6 9 (by decide) main_v32_0 (by decide), (stage2 m c).1, V9_v48, kept m _ c 8 9 (by decide) main_v46_0 (by decide), (stage3 m c).1, V9_v49, V9_v50]
  rfl

end KerValue

end Cert.KernelIdeal.Hand

end
-- ==== Proof.RefValue.lean ====
import proofs.«410414_j13597866459249_2_alg».proof.Proof.Gen.ReferenceIdeal.Read
import proofs.«410414_j13597866459249_2_alg».proof.Proof.Spec
import proofs.«410414_j13597866459249_2_alg».proof.Proof.Model
import proofs.«410414_j13597866459249_2_alg».proof.Proof.EdgeOps
import Idealize.ShloMosaic.Lib.Pipeline.Value
import Idealize.ShloMosaic.PureOps.Ideal.Laws

noncomputable section

namespace Cert.RefValue

open Idealize.ShloMosaic Idealize.ShloMosaic.ValueIdx Cert.Spec Cert.ReferenceIdeal Cert.ReferenceIdeal.Read

abbrev Arr2 (a b : ℕ) : Type := (⟨2, ![a, b]⟩ : Shape).Idx → EReal
abbrev Arr1 (b : ℕ) : Type := (⟨1, ![b]⟩ : Shape).Idx → EReal
abbrev Arr0 : Type := (⟨0, ![]⟩ : Shape).Idx → EReal

section Ops

variable {a b c : ℕ}

theorem mm_of_apply {Z : Arr2 a c} {Y : Arr2 a b} {W : Arr2 b c}
    {lidx : (⟨2, ![a, c]⟩ : Shape).Idx → Fin b → (⟨2, ![a, b]⟩ : Shape).Idx}
    {ridx : (⟨2, ![a, c]⟩ : Shape).Idx → Fin b → (⟨2, ![b, c]⟩ : Shape).Idx}
    (h : ∀ i, Z i = ∑ k : Fin b, Y (lidx i k) * W (ridx i k))
    (hl : ∀ n j k, lidx (ix2 n j) k = ix2 n k) (hr : ∀ n j k, ridx (ix2 n j) k = ix2 k j) :
    ofIdx2 Z = mm (ofIdx2 Y) (ofIdx2 W) := by
  funext n j
  show Z (ix2 n j) = ∑ k : Fin b, Y (ix2 n k) * W (ix2 k j)
  rw [h]
  exact Finset.sum_congr rfl fun k _ => by rw [hl, hr]

theorem add_of_apply {Z X Y : Arr2 a b} (h : ∀ i, Z i = X i + Y i) : ofIdx2 Z = add (ofIdx2 X) (ofIdx2 Y) := by
  funext n j; exact h _

theorem bc_of_apply {Bc : Arr2 a b} {B1 : Arr2 1 b} {v : Arr1 b}
    {i2 : (⟨2, ![a, b]⟩ : Shape).Idx → (⟨2, ![1, b]⟩ : Shape).Idx}
    {i1 : (⟨2, ![1, b]⟩ : Shape).Idx → (⟨1, ![b]⟩ : Shape).Idx}
    (h2 : ∀ i, Bc i = B1 (i2 i)) (h1 : ∀ i, B1 i = v (i1 i)) (e : ∀ n j, i1 (i2 (ix2 n j)) = ix1 j) (n : Fin a) (j : Fin b) :
    Bc (ix2 n j) = v (ix1 j) := by
  rw [h2, h1, e]

theorem addB_of_apply {Z Y Bc : Arr2 a b} {B1 : Arr2 1 b} {v : Arr1 b}
    {i2 : (⟨2, ![a, b]⟩ : Shape).Idx → (⟨2, ![1, b]⟩ : Shape).Idx}
    {i1 : (⟨2, ![1, b]⟩ : Shape).Idx → (⟨1, ![b]⟩ : Shape).Idx}
    (h : ∀ i, Z i = Y i + Bc i) (h2 : ∀ i, Bc i = B1 (i2 i)) (h1 : ∀ i, B1 i = v (i1 i)) (e : ∀ n j, i1 (i2 (ix2 n j)) = ix1 j) :
    ofIdx2 Z = addB (ofIdx2 Y) (ofIdx1 v) := by
  funext n j
  show Z (ix2 n j) = Y (ix2 n j) + v (ix1 j)
  rw [h, bc_of_apply h2 h1 e]

theorem relu_of_apply {Z Y Zr : Arr2 a b} {C : Arr0} {i0 : (⟨2, ![a, b]⟩ : Shape).Idx → (⟨0, ![]⟩ : Shape).Idx}
    (h : ∀ i, Z i = max (Y i) (Zr i)) (hz : ∀ i, Zr i = C (i0 i)) (hc : ∀ i, C i = Ideal.ofBits .f32 0x00000000#32) :
    ofIdx2 Z = relu (ofIdx2 Y) := by
  funext n j
  show Z (ix2 n j) = max (Y (ix2 n j)) 0
  rw [h, hz, hc, Ideal.ofBits_zero_f32]

end Ops

theorem cat3_of (A B C : Arr2 50000 64) (h : _) :
    ofIdx2 (concatenate (⟨2, ![50000, 192]⟩ : Shape) 1
      [(⟨(⟨2, ![50000, 64]⟩ : Shape), A⟩ : (s : Shape) × (s.Idx → EReal)), ⟨(⟨2, ![50000, 64]⟩ : Shape), B⟩, ⟨(⟨2, ![50000, 64]⟩ : Shape), C⟩] h)
      = cat3 (ofIdx2 A) (ofIdx2 B) (ofIdx2 C) := by
  funext n k
  unfold cat3
  by_cases h0 : k.val < 64
  · rw [dif_pos h0]
    exact concatenate_apply_piece (1 : Fin 2) _ h (ix2 n k) 0 (by show (0 : ℕ) < 3; omega) (⟨2, ![50000, 64]⟩ : Shape) A rfl rfl 0 rfl
      (ix2 n ⟨k.val, h0⟩) (fun b hb => by match b with | ⟨0, _⟩ => rfl | ⟨1, _⟩ => exact absurd rfl hb)
      (by show 0 + k.val = k.val; omega)
  · rw [dif_neg h0]
    by_cases h1 : k.val < 128
    · rw [dif_pos h1]
      exact concatenate_apply_piece (1 : Fin 2) _ h (ix2 n k) 1 (by show (1 : ℕ) < 3; omega) (⟨2, ![50000, 64]⟩ : Shape) B rfl rfl 64 rfl
        (ix2 n ⟨k.val - 64, by omega⟩) (fun b hb => by match b with | ⟨0, _⟩ => rfl | ⟨1, _⟩ => exact absurd rfl hb)
        (by show 64 + (k.val - 64) = k.val; omega)
    · rw [dif_neg h1]
      exact concatenate_apply_piece (1 : Fin 2) _ h (ix2 n k) 2 (by show (2 : ℕ) < 3; omega) (⟨2, ![50000, 64]⟩ : Shape) C rfl rfl 128 rfl
        (ix2 n ⟨k.val - 128, by have := k.isLt; omega⟩) (fun b hb => by match b with | ⟨0, _⟩ => rfl | ⟨1, _⟩ => exact absurd rfl hb)
        (by show 128 + (k.val - 128) = k.val; omega)

theorem scatterAdd_ideal {s si u : Shape} {w : ℕ} (d : ScatterDims s si u) (x : FVec Ideal s .f32) (idx : IVec si w)
    (upd : FVec Ideal u .f32) : Host.scatterAdd d x idx upd = Ideal.hostScatterAdd d x idx upd := rfl

section
variable (x0 : Arr2 50000 100) (x1 : (⟨2, ![2, 800000]⟩ : Shape).Idx → BitVec 32) (x2 : (⟨1, ![50000]⟩ : Shape).Idx → BitVec 32)
  (x3 : Arr2 100 64) (x4 : Arr1 64) (x5 : Arr2 64 64) (x6 : Arr1 64) (x7 : Arr2 64 64) (x8 : Arr1 64) (x9 : Arr2 64 64) (x10 : Arr1 64)
  (x11 : Arr2 64 64) (x12 : Arr1 64) (x13 : Arr2 64 64) (x14 : Arr1 64) (x15 : Arr2 192 64) (x16 : Arr1 64) (x17 : Arr2 64 64)
  (x18 x19 x20 x21 x22 : Arr1 64) (x23 : Arr2 64 64) (x24 : Arr1 64) (x25 : Arr2 64 24) (x26 : Arr1 24)

theorem agg0 : ofIdx2 (val_main_v13 (F := Ideal) x0 x1) = agg (Cert.Edge.srcRow x1) (Cert.Edge.dstLand x1) (ofIdx2 x0) :=
  (congrArg ofIdx2 (scatterAdd_ideal _ _ _ _)).trans (Cert.Edge.agg_chain (D := 100) _ rfl rfl rfl rfl rfl _ rfl rfl rfl rfl _ _ _ _ _ _ x1 x0)

theorem layer0 : ofIdx2 (val_main_v26 (F := Ideal) x0 x1 x3 x4 x5 x6)
    = layer (Cert.Edge.srcRow x1) (Cert.Edge.dstLand x1) (ofIdx2 x3) (ofIdx1 x4) (ofIdx2 x5) (ofIdx1 x6) (ofIdx2 x0) := by
  rw [relu_of_apply (val_main_v26_apply (F := Ideal) _ _ _ _ _ _) val_main_v25_apply val_main_cst_2_apply,
    addB_of_apply (val_main_v24_apply (F := Ideal) _ _ _ _ _ _) (val_main_v23_apply _) (val_main_v22_apply _) (fun _ _ => funext fun | ⟨0, _⟩ => rfl),
    mm_of_apply (val_main_v21_apply _ _ _ _ _) (fun _ _ _ => Shape.idx_ext₂ rfl rfl) (fun _ _ _ => Shape.idx_ext₂ rfl rfl),
    relu_of_apply (val_main_v20_apply (F := Ideal) _ _ _ _) val_main_v19_apply val_main_cst_1_apply,
    addB_of_apply (val_main_v18_apply (F := Ideal) _ _ _ _) (val_main_v17_apply _) (val_main_v16_apply _) (fun _ _ => funext fun | ⟨0, _⟩ => rfl),
    mm_of_apply (val_main_v15_apply _ _ _) (fun _ _ _ => Shape.idx_ext₂ rfl rfl) (fun _ _ _ => Shape.idx_ext₂ rfl rfl),
    add_of_apply (val_main_v14_apply (F := Ideal) _ _), agg0]
  rfl

theorem agg1 : ofIdx2 (val_main_v36 (F := Ideal) x0 x1 x3 x4 x5 x6)
    = agg (Cert.Edge.srcRow x1) (Cert.Edge.dstLand x1) (ofIdx2 (val_main_v26 (F := Ideal) x0 x1 x3 x4 x5 x6)) :=
  (congrArg ofIdx2 (scatterAdd_ideal _ _ _ _)).trans (Cert.Edge.agg_chain (D := 64) _ rfl rfl rfl rfl rfl _ rfl rfl rfl rfl _ _ _ _ _ _ x1 (val_main_v26 (F := Ideal) x0 x1 x3 x4 x5 x6))

theorem layer1 : ofIdx2 (val_main_v49 (F := Ideal) x0 x1 x3 x4 x5 x6 x7 x8 x9 x10)
    = layer (Cert.Edge.srcRow x1) (Cert.Edge.dstLand x1) (ofIdx2 x7) (ofIdx1 x8) (ofIdx2 x9) (ofIdx1 x10)
        (ofIdx2 (val_main_v26 (F := Ideal) x0 x1 x3 x4 x5 x6)) := by
  rw [relu_of_apply (val_main_v49_apply (F := Ideal) _ _ _ _ _ _ _ _ _ _) val_main_v48_apply val_main_cst_7_apply,
    addB_of_apply (val_main_v47_apply (F := Ideal) _ _ _ _ _ _ _ _ _ _) (val_main_v46_apply _) (val_main_v45_apply _) (fun _ _ => funext fun | ⟨0, _⟩ => rfl),
    mm_of_apply (val_main_v44_apply _ _ _ _ _ _ _ _ _) (fun _ _ _ => Shape.idx_ext₂ rfl rfl) (fun _ _ _ => Shape.idx_ext₂ rfl rfl),
    relu_of_apply (val_main_v43_apply (F := Ideal) _ _ _ _ _ _ _ _) val_main_v42_apply val_main_cst_6_apply,
    addB_of_apply (val_main_v41_apply (F := Ideal) _ _ _ _ _ _ _ _) (val_main_v40_apply _) (val_main_v39_apply _) (fun _ _ => funext fun | ⟨0, _⟩ => rfl),
    mm_of_apply (val_main_v38_apply _ _ _ _ _ _ _) (fun _ _ _ => Shape.idx_ext₂ rfl rfl) (fun _ _ _ => Shape.idx_ext₂ rfl rfl),
    add_of_apply (val_main_v37_apply (F := Ideal) _ _ _ _ _ _), agg1]
  rfl

theorem agg2 : ofIdx2 (val_main_v59 (F := Ideal) x0 x1 x3 x4 x5 x6 x7 x8 x9 x10)
    = agg (Cert.Edge.srcRow x1) (Cert.Edge.dstLand x1) (ofIdx2 (val_main_v49 (F := Ideal) x0 x1 x3 x4 x5 x6 x7 x8 x9 x10)) :=
  (congrArg ofIdx2 (scatterAdd_ideal _ _ _ _)).trans (Cert.Edge.agg_chain (D := 64) _ rfl rfl rfl rfl rfl _ rfl rfl rfl rfl _ _ _ _ _ _ x1 (val_main_v49 (F := Ideal) x0 x1 x3 x4 x5 x6 x7 x8 x9 x10))

theorem layer2 : ofIdx2 (val_main_v72 (F := Ideal) x0 x1 x3 x4 x5 x6 x7 x8 x9 x10 x11 x12 x13 x14)
    = layer (Cert.Edge.srcRow x1) (Cert.Edge.dstLand x1) (ofIdx2 x11) (ofIdx1 x12) (ofIdx2 x13) (ofIdx1 x14)
        (ofIdx2 (val_main_v49 (F := Ideal) x0 x1 x3 x4 x5 x6 x7 x8 x9 x10)) := by
  rw [relu_of_apply (val_main_v72_apply (F := Ideal) _ _ _ _ _ _ _ _ _ _ _ _ _ _) val_main_v71_apply val_main_cst_12_apply,
    addB_of_apply (val_main_v70_apply (F := Ideal) _ _ _ _ _ _ _ _ _ _ _ _ _ _) (val_main_v69_apply _) (val_main_v68_apply _) (fun _ _ => funext fun | ⟨0, _⟩ => rfl),
    mm_of_apply (val_main_v67_apply _ _ _ _ _ _ _ _ _ _ _ _ _) (fun _ _ _ => Shape.idx_ext₂ rfl rfl) (fun _ _ _ => Shape.idx_ext₂ rfl rfl),
    relu_of_apply (val_main_v66_apply (F := Ideal) _ _ _ _ _ _ _ _ _ _ _ _) val_main_v65_apply val_main_cst_11_apply,
    addB_of_apply (val_main_v64_apply (F := Ideal) _ _ _ _ _ _ _ _ _ _ _ _) (val_main_v63_apply _) (val_main_v62_apply _) (fun _ _ => funext fun | ⟨0, _⟩ => rfl),
    mm_of_apply (val_main_v61_apply _ _ _ _ _ _ _ _ _ _ _) (fun _ _ _ => Shape.idx_ext₂ rfl rfl) (fun _ _ _ => Shape.idx_ext₂ rfl rfl),
    add_of_apply (val_main_v60_apply (F := Ideal) _ _ _ _ _ _ _ _ _ _), agg2]
  rfl

theorem mixed : ofIdx2 (val_main_v77 (F := Ideal) x0 x1 x3 x4 x5 x6 x7 x8 x9 x10 x11 x12 x13 x14 x15 x16)
    = mixR (ofIdx2 (val_main_v26 (F := Ideal) x0 x1 x3 x4 x5 x6)) (ofIdx2 (val_main_v49 (F := Ideal) x0 x1 x3 x4 x5 x6 x7 x8 x9 x10))
        (ofIdx2 (val_main_v72 (F := Ideal) x0 x1 x3 x4 x5 x6 x7 x8 x9 x10 x11 x12 x13 x14)) (ofIdx2 x15) (ofIdx1 x16) := by
  rw [addB_of_apply (val_main_v77_apply (F := Ideal) _ _ _ _ _ _ _ _ _ _ _ _ _ _ _ _) (val_main_v76_apply _) (val_main_v75_apply _) (fun _ _ => funext fun | ⟨0, _⟩ => rfl),
    mm_of_apply (val_main_v74_apply _ _ _ _ _ _ _ _ _ _ _ _ _ _ _) (fun _ _ _ => Shape.idx_ext₂ rfl rfl) (fun _ _ _ => Shape.idx_ext₂ rfl rfl)]
  unfold val_main_v73
  rw [cat3_of]
  rfl

theorem pooled : ofIdx2 (val_main_v80 (F := Ideal) x0 x1 x2 x3 x4 x5 x6 x7 x8 x9 x10 x11 x12 x13 x14 x15 x16)
    = poolR (Cert.Edge.graphLand x2) (ofIdx2 (val_main_v77 (F := Ideal) x0 x1 x3 x4 x5 x6 x7 x8 x9 x10 x11 x12 x13 x14 x15 x16)) :=
  (congrArg ofIdx2 (scatterAdd_ideal _ _ _ _)).trans (Cert.Edge.pool_chain _ rfl rfl rfl rfl _ _ x2 (val_main_v77 (F := Ideal) x0 x1 x3 x4 x5 x6 x7 x8 x9 x10 x11 x12 x13 x14 x15 x16))

noncomputable def epsR : EReal := Ideal.ofBits .f32 0x3727C5AC#32

theorem readout : ofIdx2 (val_main_v109 (F := Ideal) x0 x1 x2 x3 x4 x5 x6 x7 x8 x9 x10 x11 x12 x13 x14 x15 x16 x17 x18 x19 x20 x21 x22 x23 x24 x25 x26)
    = head epsR (ofIdx2 x17) (ofIdx1 x18) (ofIdx1 x19) (ofIdx1 x20) (ofIdx1 x21) (ofIdx1 x22) (ofIdx2 x23) (ofIdx1 x24)
        (ofIdx2 x25) (ofIdx1 x26) (ofIdx2 (val_main_v80 (F := Ideal) x0 x1 x2 x3 x4 x5 x6 x7 x8 x9 x10 x11 x12 x13 x14 x15 x16)) := by
  have e99 : ofIdx2 (val_main_v99 (F := Ideal) x0 x1 x2 x3 x4 x5 x6 x7 x8 x9 x10 x11 x12 x13 x14 x15 x16 x17 x18 x19 x20 x21 x22)
      = fun s j => (ofIdx2 (val_main_v84 (F := Ideal) x0 x1 x2 x3 x4 x5 x6 x7 x8 x9 x10 x11 x12 x13 x14 x15 x16 x17 x18) s j - ofIdx1 x21 j) * Ideal.rsqrt (ofIdx1 x22 j + epsR) * ofIdx1 x19 j
          + ofIdx1 x20 j := by
    funext s j
    show val_main_v99 (F := Ideal) x0 x1 x2 x3 x4 x5 x6 x7 x8 x9 x10 x11 x12 x13 x14 x15 x16 x17 x18 x19 x20 x21 x22 (ix2 s j)
      = (val_main_v84 (F := Ideal) x0 x1 x2 x3 x4 x5 x6 x7 x8 x9 x10 x11 x12 x13 x14 x15 x16 x17 x18 (ix2 s j) - x21 (ix1 j)) * Ideal.rsqrt (x22 (ix1 j) + epsR) * x19 (ix1 j) + x20 (ix1 j)
    rw [val_main_v99_apply, val_main_v96_apply, val_main_v93_apply, val_main_v87_apply,
      bc_of_apply (val_main_v98_apply (F := Ideal) x20) (val_main_v97_apply (F := Ideal) x20) (fun _ _ => funext fun | ⟨0, _⟩ => rfl),
      bc_of_apply (val_main_v95_apply (F := Ideal) x19) (val_main_v94_apply (F := Ideal) x19) (fun _ _ => funext fun | ⟨0, _⟩ => rfl),
      bc_of_apply (val_main_v92_apply (F := Ideal) x22) (val_main_v91_apply (F := Ideal) x22) (fun _ _ => funext fun | ⟨0, _⟩ => rfl),
      bc_of_apply (val_main_v86_apply (F := Ideal) x21) (val_main_v85_apply (F := Ideal) x21) (fun _ _ => funext fun | ⟨0, _⟩ => rfl),
      val_main_v90_apply, val_main_v89_apply, val_main_v88_apply, val_main_cst_14_apply]
    rfl
  rw [addB_of_apply (val_main_v109_apply (F := Ideal) _ _ _ _ _ _ _ _ _ _ _ _ _ _ _ _ _ _ _ _ _ _ _ _ _ _ _) (val_main_v108_apply _) (val_main_v107_apply _) (fun _ _ => funext fun | ⟨0, _⟩ => rfl),
    mm_of_apply (val_main_v106_apply _ _ _ _ _ _ _ _ _ _ _ _ _ _ _ _ _ _ _ _ _ _ _ _ _ _) (fun _ _ _ => Shape.idx_ext₂ rfl rfl) (fun _ _ _ => Shape.idx_ext₂ rfl rfl),
    addB_of_apply (val_main_v105_apply (F := Ideal) _ _ _ _ _ _ _ _ _ _ _ _ _ _ _ _ _ _ _ _ _ _ _ _ _) (val_main_v104_apply _) (val_main_v103_apply _) (fun _ _ => funext fun | ⟨0, _⟩ => rfl),
    mm_of_apply (val_main_v102_apply _ _ _ _ _ _ _ _ _ _ _ _ _ _ _ _ _ _ _ _ _ _ _ _) (fun _ _ _ => Shape.idx_ext₂ rfl rfl) (fun _ _ _ => Shape.idx_ext₂ rfl rfl),
    relu_of_apply (val_main_v101_apply (F := Ideal) _ _ _ _ _ _ _ _ _ _ _ _ _ _ _ _ _ _ _ _ _ _ _) val_main_v100_apply val_main_cst_15_apply, e99,
    addB_of_apply (val_main_v84_apply (F := Ideal) _ _ _ _ _ _ _ _ _ _ _ _ _ _ _ _ _ _ _) (val_main_v83_apply _) (val_main_v82_apply _) (fun _ _ => funext fun | ⟨0, _⟩ => rfl),
    mm_of_apply (val_main_v81_apply _ _ _ _ _ _ _ _ _ _ _ _ _ _ _ _ _ _) (fun _ _ _ => Shape.idx_ext₂ rfl rfl) (fun _ _ _ => Shape.idx_ext₂ rfl rfl)]
  rfl

theorem value_eq : ofIdx2 (val_main_v109 (F := Ideal) x0 x1 x2 x3 x4 x5 x6 x7 x8 x9 x10 x11 x12 x13 x14 x15 x16 x17 x18 x19 x20 x21 x22 x23 x24 x25 x26)
    = Cert.Model.modelR epsR (Cert.Edge.srcRow x1) (Cert.Edge.dstLand x1) (Cert.Edge.graphLand x2)
        { x := ofIdx2 x0, w10 := ofIdx2 x3, b10 := ofIdx1 x4, w20 := ofIdx2 x5, b20 := ofIdx1 x6,
          w11 := ofIdx2 x7, b11 := ofIdx1 x8, w21 := ofIdx2 x9, b21 := ofIdx1 x10,
          w12 := ofIdx2 x11, b12 := ofIdx1 x12, w22 := ofIdx2 x13, b22 := ofIdx1 x14,
          jw := ofIdx2 x15, jb := ofIdx1 x16, fw1 := ofIdx2 x17, fb1 := ofIdx1 x18, bg := ofIdx1 x19, bb := ofIdx1 x20,
          bm := ofIdx1 x21, bv := ofIdx1 x22, fw2 := ofIdx2 x23, fb2 := ofIdx1 x24, ow := ofIdx2 x25, ob := ofIdx1 x26 } := by
  rw [readout, pooled, mixed, layer2, layer1, layer0]
  rfl

end

noncomputable def paramsR (m : (ℓ : Loc Cert.ReferenceIdeal.nD Cert.ReferenceIdeal.τ Cert.ReferenceIdeal.sig) → Buf (Elt Ideal) ℓ)
    (c : Dev Cert.ReferenceIdeal.nD) : Cert.Model.Params where
  x := ofIdx2 (a := 50000) (b := 100) (m ((c.tc : Thread nD τ).loc main_arg0))
  w10 := ofIdx2 (a := 100) (b := 64) (m ((c.tc : Thread nD τ).loc main_arg3))
  b10 := ofIdx1 (b := 64) (m ((c.tc : Thread nD τ).loc main_arg4))
  w20 := ofIdx2 (a := 64) (b := 64) (m ((c.tc : Thread nD τ).loc main_arg5))
  b20 := ofIdx1 (b := 64) (m ((c.tc : Thread nD τ).loc main_arg6))
  w11 := ofIdx2 (a := 64) (b := 64) (m ((c.tc : Thread nD τ).loc main_arg7))
  b11 := ofIdx1 (b := 64) (m ((c.tc : Thread nD τ).loc main_arg8))
  w21 := ofIdx2 (a := 64) (b := 64) (m ((c.tc : Thread nD τ).loc main_arg9))
  b21 := ofIdx1 (b := 64) (m ((c.tc : Thread nD τ).loc main_arg10))
  w12 := ofIdx2 (a := 64) (b := 64) (m ((c.tc : Thread nD τ).loc main_arg11))
  b12 := ofIdx1 (b := 64) (m ((c.tc : Thread nD τ).loc main_arg12))
  w22 := ofIdx2 (a := 64) (b := 64) (m ((c.tc : Thread nD τ).loc main_arg13))
  b22 := ofIdx1 (b := 64) (m ((c.tc : Thread nD τ).loc main_arg14))
  jw := ofIdx2 (a := 192) (b := 64) (m ((c.tc : Thread nD τ).loc main_arg15))
  jb := ofIdx1 (b := 64) (m ((c.tc : Thread nD τ).loc main_arg16))
  fw1 := ofIdx2 (a := 64) (b := 64) (m ((c.tc : Thread nD τ).loc main_arg17))
  fb1 := ofIdx1 (b := 64) (m ((c.tc : Thread nD τ).loc main_arg18))
  bg := ofIdx1 (b := 64) (m ((c.tc : Thread nD τ).loc main_arg19))
  bb := ofIdx1 (b := 64) (m ((c.tc : Thread nD τ).loc main_arg20))
  bm := ofIdx1 (b := 64) (m ((c.tc : Thread nD τ).loc main_arg21))
  bv := ofIdx1 (b := 64) (m ((c.tc : Thread nD τ).loc main_arg22))
  fw2 := ofIdx2 (a := 64) (b := 64) (m ((c.tc : Thread nD τ).loc main_arg23))
  fb2 := ofIdx1 (b := 64) (m ((c.tc : Thread nD τ).loc main_arg24))
  ow := ofIdx2 (a := 64) (b := 24) (m ((c.tc : Thread nD τ).loc main_arg25))
  ob := ofIdx1 (b := 24) (m ((c.tc : Thread nD τ).loc main_arg26))

theorem ref_value (m : (ℓ : Loc Cert.ReferenceIdeal.nD Cert.ReferenceIdeal.τ Cert.ReferenceIdeal.sig) → Buf (Elt Ideal) ℓ)
    (c : Dev Cert.ReferenceIdeal.nD) :
    ofIdx2 (a := 512) (b := 24) (Cert.ReferenceIdeal.Value.res_out0 (F := Ideal) m c)
      = Cert.Model.modelR epsR (Cert.Edge.srcRow (m ((c.tc : Thread nD τ).loc main_arg1))) (Cert.Edge.dstLand (m ((c.tc : Thread nD τ).loc main_arg1))) (Cert.Edge.graphLand (m ((c.tc : Thread nD τ).loc main_arg2)))
          (paramsR m c) := by
  show ofIdx2 (a := 512) (b := 24) (Cert.ReferenceIdeal.Value.res_main_v109 (F := Ideal) m c) = _
  rw [val_main_v109_eq]
  exact value_eq _ _ _ _ _ _ _ _ _ _ _ _ _ _ _ _ _ _ _ _ _ _ _ _ _ _ _

end Cert.RefValue

end
-- ==== Proof.Finite.lean ====
import proofs.«410414_j13597866459249_2_alg».proof.Defs
import proofs.«410414_j13597866459249_2_alg».proof.Pre_finite_inputs
import proofs.«410414_j13597866459249_2_alg».proof.Proof.Gen.Pre_finite_inputs
import proofs.«410414_j13597866459249_2_alg».proof.KernelIdeal
import Idealize.ShloMosaic.Lib.ReduceAll
import Idealize.ShloMosaic.Lib.StableHlo.Predicate
import Idealize.ShloMosaic.Lib.ValueIdx

noncomputable section

namespace Cert.Finite

open Idealize.ShloMosaic Idealize.SL.Sem Cert.Pre_finite_inputs

instance subsingleton_S_ : Subsingleton S_.Idx := ⟨fun a b => funext fun d => d.elim0⟩

theorem andi_left {a b : IVec S_ 1} (h : andi a b = fun _ => 1#1) : a = fun _ => 1#1 :=
  funext fun i => (IntOp.andi_eq_one.1 (congrFun h i)).1

theorem andi_right {a b : IVec S_ 1} (h : andi a b = fun _ => 1#1) : b = fun _ => 1#1 :=
  funext fun i => (IntOp.andi_eq_one.1 (congrFun h i)).2

variable {F : FTy → Type} [FloatOps F]

theorem part7_left {v118 v119} (h : fn_part7 (F := F) v118 v119 = fun _ => 1#1) : v118 = fun _ => 1#1 := by
  unfold fn_part7 at h; dsimp only at h
  exact andi_left h

theorem part6_left {a23 a24 a25 a26 v98 v101 c39} (h : fn_part6 (F := F) a23 a24 a25 a26 v98 v101 c39 = fun _ => 1#1) : v98 = fun _ => 1#1 := by
  unfold fn_part6 at h; dsimp only at h
  exact andi_left (andi_left (andi_left (andi_left (part7_left h))))

theorem part5_left {a20 a21 a22 a23 a24 a25 a26 v83 v84 c32} (h : fn_part5 (F := F) a20 a21 a22 a23 a24 a25 a26 v83 v84 c32 = fun _ => 1#1) : v83 = fun _ => 1#1 := by
  unfold fn_part5 at h; dsimp only at h
  exact andi_left (andi_left (andi_left (part6_left h)))

theorem part4_left {a16 a17 a18 a19 a20 a21 a22 a23 a24 a25 a26 v63 v67} (h : fn_part4 (F := F) a16 a17 a18 a19 a20 a21 a22 a23 a24 a25 a26 v63 v67 = fun _ => 1#1) : v63 = fun _ => 1#1 := by
  unfold fn_part4 at h; dsimp only at h
  exact andi_left (andi_left (andi_left (andi_left (part5_left h))))

theorem part3_left {a13 a14 a15 a16 a17 a18 a19 a20 a21 a22 a23 a24 a25 a26 v48 v49 v50} (h : fn_part3 (F := F) a13 a14 a15 a16 a17 a18 a19 a20 a21 a22 a23 a24 a25 a26 v48 v49 v50 = fun _ => 1#1) : v48 = fun _ => 1#1 := by
  unfold fn_part3 at h; dsimp only at h
  exact andi_left (andi_left (andi_left (part4_left h)))

theorem part2_left {a9 a10 a11 a12 a13 a14 a15 a16 a17 a18 a19 a20 a21 a22 a23 a24 a25 a26 v33} (h : fn_part2 (F := F) a9 a10 a11 a12 a13 a14 a15 a16 a17 a18 a19 a20 a21 a22 a23 a24 a25 a26 v33 = fun _ => 1#1) : v33 = fun _ => 1#1 := by
  unfold fn_part2 at h; dsimp only at h
  exact andi_left (andi_left (andi_left (part3_left h)))

theorem part1_left {a6 a7 a8 a9 a10 a11 a12 a13 a14 a15 a16 a17 a18 a19 a20 a21 a22 a23 a24 a25 a26 v13 v16} (h : fn_part1 (F := F) a6 a7 a8 a9 a10 a11 a12 a13 a14 a15 a16 a17 a18 a19 a20 a21 a22 a23 a24 a25 a26 v13 v16 = fun _ => 1#1) : v13 = fun _ => 1#1 := by
  unfold fn_part1 at h; dsimp only at h
  exact andi_left (andi_left (andi_left (andi_left (part2_left h))))

noncomputable abbrev allFinite {s : Shape} {axes : List (Fin s.rank)} (a : FVec F s .f32)
    (bc : S_.BroadcastsInDim s (![] : Fin 0 → Fin s.rank)) (rd : s.ReducesTo axes S_) (hu : 0 < S_.numel) : IVec S_ 1 :=
  Host.reduce IntOp.andi (cmpf .olt (Host.absf a) (broadcastInDim s ![] bc (constant S_ .f32 0x7F800000#32)))
    (constantI S_ 1 1#1) rd hu

/-- The precondition is a conjunction whose first two conjuncts say that the first and the fourth input are finite everywhere. -/
theorem fn_first_two {a0 a1 a2 a3 a4 a5 a6 a7 a8 a9 a10 a11 a12 a13 a14 a15 a16 a17 a18 a19 a20 a21 a22 a23 a24 a25 a26} (h : fn (F := F) a0 a1 a2 a3 a4 a5 a6 a7 a8 a9 a10 a11 a12 a13 a14 a15 a16 a17 a18 a19 a20 a21 a22 a23 a24 a25 a26 = fun _ => 1#1) :
    allFinite a0 Facts.bcast_S_S50000x100 Facts.reducesTo_S50000x100_S_d0_1 Facts.h_S_ = (fun _ => 1#1)
      ∧ allFinite a3 Facts.bcast_S_S100x64 Facts.reducesTo_S100x64_S_d0_1 Facts.h_S_ = (fun _ => 1#1) := by
  unfold fn at h; dsimp only at h
  have h2 := andi_left (part1_left h)
  exact ⟨andi_left h2, andi_right h2⟩

theorem inf_eq_top : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [inf_eq_top] at h
  have hlt : max x (-x) < ⊤ := by
    by_contra hn
    simp [Ideal.cmp, hn] at h
  induction x using EReal.rec with
  | bot => simp at hlt
  | coe r => exact ⟨r, rfl⟩
  | top => simp at hlt

theorem real_of_allFinite {s : Shape} {axes : List (Fin s.rank)} (a : FVec Ideal s .f32)
    (bc : S_.BroadcastsInDim s (![] : Fin 0 → Fin s.rank)) (rd : s.ReducesTo axes S_) (hu : 0 < S_.numel)
    (h : allFinite a bc rd hu = fun _ => 1#1) (i : s.Idx) : ∃ r : ℝ, a i = (r : EReal) := by
  have e := Host.reduce_andi_all _ _ rd hu ValueIdx.ix0 (congrFun h ValueIdx.ix0) i
  exact real_of_abs_lt (a i) e

theorem x_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S50000x100.Idx, ∃ r : ℝ,
      (m ((c.tc : Thread Cert.KernelIdeal.nD Cert.KernelIdeal.τ).loc Cert.KernelIdeal.main_arg0) :
        Cert.KernelIdeal.S50000x100.Idx → EReal) i = (r : EReal) :=
  fun i => real_of_allFinite _ _ _ _ (fn_first_two (h c)).1 i

theorem w1_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S100x64.Idx, ∃ r : ℝ,
      (m ((c.tc : Thread Cert.KernelIdeal.nD Cert.KernelIdeal.τ).loc Cert.KernelIdeal.main_arg3) :
        Cert.KernelIdeal.S100x64.Idx → EReal) i = (r : EReal) :=
  fun i => real_of_allFinite _ _ _ _ (fn_first_two (h c)).2 i

end Cert.Finite

end
-- ==== Proof.lean ====
import proofs.«410414_j13597866459249_2_alg».proof.Defs
import proofs.«410414_j13597866459249_2_alg».proof.Proof.Gen.Kernel
import proofs.«410414_j13597866459249_2_alg».proof.Proof.Gen.KernelIdeal
import proofs.«410414_j13597866459249_2_alg».proof.Proof.Gen.ReferenceIdeal
import proofs.«410414_j13597866459249_2_alg».proof.Proof.Gen.Pre_finite_inputs
import proofs.«410414_j13597866459249_2_alg».proof.Proof.Kernel.Frame
import proofs.«410414_j13597866459249_2_alg».proof.Proof.KernelIdeal.RunOut
import proofs.«410414_j13597866459249_2_alg».proof.Proof.KernelIdeal.KerValue
import proofs.«410414_j13597866459249_2_alg».proof.Proof.RefValue
import proofs.«410414_j13597866459249_2_alg».proof.Proof.Model
import proofs.«410414_j13597866459249_2_alg».proof.Proof.Finite
import proofs.«410414_j13597866459249_2_alg».proof.Proof.EdgeOps
import Idealize.ShloMosaic.Adequacy
import Idealize.ShloMosaic.Init

noncomputable section

namespace Cert.Proof

open Idealize.ShloMosaic Idealize.SL.Sem Cert.Spec

theorem eq_of_ofIdx2 {a b : ℕ} (f g : (⟨2, ![a, b]⟩ : Shape).Idx → EReal) (h : ofIdx2 f = ofIdx2 g) : f = g := by
  funext i
  rw [ValueIdx.eq_ix2 i]
  exact congrFun (congrFun h (i 0)) (i 1)

/-- Both results are read as functions of the inputs; on the same arguments the two functions agree when the node features and the
    first weight matrix are finite. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hp : Cert.RefValue.paramsR m' c = Cert.KernelIdeal.Hand.paramsK m c)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 (F := Ideal) m' c = Cert.KernelIdeal.Hand.outs m 10 Cert.KernelIdeal.main_v59 c := by
  refine eq_of_ofIdx2 (a := 512) (b := 24) _ _ ?_
  rw [Cert.RefValue.ref_value m' c, Cert.KernelIdeal.Hand.ker_value m c, hp, h1, h2]
  exact (Cert.Model.model_eq _ _ _ _ _ _
    (fun n k => Cert.Finite.x_real m hpre c (ValueIdx.ix2 n k)) (fun k j => Cert.Finite.w1_real m hpre c (ValueIdx.ix2 k j))
    (fun n s => Cert.Edge.oneHot_eq _ n s)).symm

theorem claim : Cert.Claim := ⟨Cert.Kernel.Gen.facts, Cert.KernelIdeal.Gen.facts, Cert.ReferenceIdeal.Gen.facts, Cert.Pre_finite_inputs.Gen.facts,
  Cert.Kernel.Hand.frame,
  fun m ρ _ => (θ_run Cert.KernelIdeal.defs _ _).mono (fun _ h c => (h c).2) (Cert.KernelIdeal.Hand.run_val m ρ),
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.KernelIdeal.Hand.outs m 10 Cert.KernelIdeal.main_v59 c, Cert.KernelIdeal.Hand.run_val m ρ,
      (θ_run Cert.ReferenceIdeal.defs _ _).mono (fun _ h c => ⟨(h c).1.trans (result_eq m m' hpre c
          (by obtain ⟨h0, h1, h2, h3, h4, h5, h6, h7, h8, h9, h10, h11, h12, h13, h14, h15, h16, h17, h18, h19, h20, h21, h22, h23, h24, h25, h26⟩ := hagree c
              unfold Cert.RefValue.paramsR Cert.KernelIdeal.Hand.paramsK
              congr 1 <;> (congr 1 <;> assumption))
          (hagree c).2.1 (hagree c).2.2.1), (h c).2⟩)
        (Cert.ReferenceIdeal.Value.run (F := Ideal) m' ρ')⟩⟩

end Cert.Proof

end
